-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S50257x1024 : Shape := ⟨2, ![50257, 1024]⟩
abbrev S4096x1024 : Shape := ⟨2, ![4096, 1024]⟩
abbrev S4096 : Shape := ⟨1, ![4096]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_v47 : IVec S_ 1) (main_v49 : IVec S1 1) (main_c_19 : IVec S_ 1) : IVec S_ 1 :=
  let main_v50 : IVec S_ 1 := (fun x v => Host.reduce IntOp.andi x v reducesTo_S1_S_d0 h_S_) main_v49 main_c_19
  let main_v51 : IVec S_ 1 := andi main_v47 main_v50
  main_v51

def fn_part2 {F : FTy → Type} [FloatOps F] (main_arg0 : IVec S1 32) (main_arg8 : FVec F S50257x1024 .f32) (main_arg9 : FVec F S50257 .f32) (main_v33 : IVec S_ 1) : IVec S_ 1 :=
  let main_v34 : FVec F S50257x1024 .f32 := Host.absf main_arg8
  let main_cst_12 : FVec F S_ .f32 := constant S_ .f32 0x7F800000#32
  let main_v35 : FVec F S50257x1024 .f32 := broadcastInDim S50257x1024 ![] bcast_S_S50257x1024 main_cst_12
  let main_v36 : IVec S50257x1024 1 := cmpf .olt main_v34 main_v35
  let main_c_13 : IVec S_ 1 := constantI S_ 1 1#1
  let main_v37 : IVec S_ 1 := (fun x v => Host.reduce IntOp.andi x v reducesTo_S50257x1024_S_d0_1 h_S_) main_v36 main_c_13
  let main_v38 : IVec S_ 1 := andi main_v33 main_v37
  let main_v39 : FVec F S50257 .f32 := Host.absf main_arg9
  let main_cst_14 : FVec F S_ .f32 := constant S_ .f32 0x7F800000#32
  let main_v40 : FVec F S50257 .f32 := broadcastInDim S50257 ![] bcast_S_S50257 main_cst_14
  let main_v41 : IVec S50257 1 := cmpf .olt main_v39 main_v40
  let main_c_15 : IVec S_ 1 := constantI S_ 1 1#1
  let main_v42 : IVec S_ 1 := (fun x v => Host.reduce IntOp.andi x v reducesTo_S50257_S_d0 h_S_) main_v41 main_c_15
  let main_v43 : IVec S_ 1 := andi main_v38 main_v42
  let main_c_16 : IVec S_ 32 := constantI S_ 32 0#32
  let main_v44 : IVec S1 32 := broadcastInDim S1 ![] bcast_S_S1 main_c_16
  let main_v45 : IVec S1 1 := cmpi .sge main_arg0 main_v44
  let main_c_17 : IVec S_ 1 := constantI S_ 1 1#1
  let main_v46 : IVec S_ 1 := (fun x v => Host.reduce IntOp.andi x v reducesTo_S1_S_d0 h_S_) main_v45 main_c_17
  let main_v47 : IVec S_ 1 := andi main_v43 main_v46
  let main_c_18 : IVec S_ 32 := constantI S_ 32 50257#32
  let main_v48 : IVec S1 32 := broadcastInDim S1 ![] bcast_S_S1 main_c_18
  let main_v49 : IVec S1 1 := cmpi .slt main_arg0 main_v48
  let main_c_19 : IVec S_ 1 := constantI S_ 1 1#1
  fn_part3 (F := F) main_v47 main_v49 main_c_19

def fn_part1 {F : FTy → Type} [FloatOps F] (main_arg0 : IVec S1 32) (main_arg5 : FVec F S4096x1024 .f32) (main_arg6 : FVec F S4096 .f32) (main_arg7 : FVec F S4096 .f32) (main_arg8 : FVec F S50257x1024 .f32) (main_arg9 : FVec F S50257 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg5
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg0 main_arg8 main_arg9 main_v33

def fn {F : FTy → Type} [FloatOps F] (main_arg0 : IVec S1 32) (main_arg1 : FVec F S1x1x1024 .f32) (main_arg2 : FVec F S1x1x1024 .f32) (main_arg3 : FVec F S50257x1024 .f32) (main_arg4 : FVec F S4096x1024 .f32) (main_arg5 : FVec F S4096x1024 .f32) (main_arg6 : FVec F S4096 .f32) (main_arg7 : FVec F S4096 .f32) (main_arg8 : FVec F S50257x1024 .f32) (main_arg9 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S1x1x1024 .f32 := Host.absf main_arg2
  let main_cst_0 : FVec F S_ .f32 := constant S_ .f32 0x7F800000#32
  let main_v5 : FVec F S1x1x1024 .f32 := broadcastInDim S1x1x1024 ![] bcast_S_S1x1x1024 main_cst_0
  let main_v6 : IVec S1x1x1024 1 := cmpf .olt main_v4 main_v5
  let main_c_1 : IVec S_ 1 := constantI S_ 1 1#1
  let main_v7 : IVec S_ 1 := (fun x v => Host.reduce IntOp.andi x v reducesTo_S1x1x1024_S_d0_1_2 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg0 main_arg5 main_arg6 main_arg7 main_arg8 main_arg9 main_v13 main_v16
-- ==== Kernel.lean ====
abbrev S1 : Shape := ⟨1, ![1]⟩
abbrev S1x1x1024 : Shape := ⟨3, ![1, 1, 1024]⟩
abbrev S50257x1024 : Shape := ⟨2, ![50257, 1024]⟩
abbrev S4096x1024 : Shape := ⟨2, ![4096, 1024]⟩
abbrev S4096 : Shape := ⟨1, ![4096]⟩
abbrev S50257 : Shape := ⟨1, ![50257]⟩
abbrev S_ : Shape := ⟨0, ![]⟩
abbrev S1x1024 : Shape := ⟨2, ![1, 1024]⟩
abbrev S1x4096 : Shape := ⟨2, ![1, 4096]⟩
abbrev S50257x1x1024 : Shape := ⟨3, ![50257, 1, 1024]⟩
abbrev S53248x1024 : Shape := ⟨2, ![53248, 1024]⟩
abbrev S53248 : Shape := ⟨1, ![53248]⟩
abbrev S1x53248 : Shape := ⟨2, ![1, 53248]⟩
abbrev S2x1x128 : Shape := ⟨3, ![2, 1, 128]⟩
abbrev S1x2048 : Shape := ⟨2, ![1, 2048]⟩
abbrev S2048x1024 : Shape := ⟨2, ![2048, 1024]⟩
abbrev S1x26624 : Shape := ⟨2, ![1, 26624]⟩
abbrev S1x1x128 : Shape := ⟨3, ![1, 1, 128]⟩
abbrev S1x1 : Shape := ⟨2, ![1, 1]⟩
abbrev S1x1x1 : Shape := ⟨3, ![1, 1, 1]⟩
abbrev S1x50257 : Shape := ⟨2, ![1, 50257]⟩

abbrev nBuf : Space → Nat
  | .hbm => 57
  | .vmem => 22
  | .smem => 1
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S1x1x1024, .f32⟩
  | .hbm, ⟨3, _⟩ => ⟨S50257x1024, .f32⟩
  | .hbm, ⟨4, _⟩ => ⟨S4096x1024, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S50257x1024, .f32⟩
  | .hbm, ⟨9, _⟩ => ⟨S50257, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1x1024, .f32⟩
  | .hbm, ⟨18, _⟩ => ⟨S1x1024, .f32⟩
  | .hbm, ⟨19, _⟩ => ⟨S1x4096, .f32⟩
  | .hbm, ⟨20, _⟩ => ⟨S1x4096, .f32⟩
  | .hbm, ⟨21, _⟩ => ⟨S50257x1x1024, .f32⟩
  | .hbm, ⟨22, _⟩ => ⟨S1x1024, .f32⟩
  | .hbm, ⟨23, _⟩ => ⟨S1x1024, .f32⟩
  | .hbm, ⟨24, _⟩ => ⟨S_, .i32⟩
  | .hbm, ⟨25, _⟩ => ⟨S_, .f32⟩
  | .hbm, ⟨26, _⟩ => ⟨S53248x1024, .f32⟩
  | .hbm, ⟨27, _⟩ => ⟨S_, .i32⟩
  | .hbm, ⟨28, _⟩ => ⟨S_, .f32⟩
  | .hbm, ⟨29, _⟩ => ⟨S53248, .f32⟩
  | .hbm, ⟨30, _⟩ => ⟨S1x53248, .f32⟩
  | .hbm, ⟨31, _⟩ => ⟨S1x53248, .f32⟩
  | .hbm, ⟨32, _⟩ => ⟨S2x1x128, .f32⟩
  | .hbm, ⟨33, _⟩ => ⟨S2x1x128, .f32⟩
  | .hbm, ⟨34, _⟩ => ⟨S1x1x1, .f32⟩
  | .hbm, ⟨35, _⟩ => ⟨S_, .f32⟩
  | .hbm, ⟨36, _⟩ => ⟨S1x1x1, .f32⟩
  | .hbm, ⟨37, _⟩ => ⟨S_, .f32⟩
  | .hbm, ⟨38, _⟩ => ⟨S1x1x1, .f32⟩
  | .hbm, ⟨39, _⟩ => ⟨S_, .f32⟩
  | .hbm, ⟨40, _⟩ => ⟨S1x1x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1x53248, .f32⟩
  | .hbm, ⟨53, _⟩ => ⟨S1x53248, .f32⟩
  | .hbm, ⟨54, _⟩ => ⟨S1x50257, .f32⟩
  | .hbm, ⟨55, _⟩ => ⟨S1x1x1024, .f32⟩
  | .hbm, ⟨56, _⟩ => ⟨S1x1x1024, .f32⟩
  | .local _ .vmem, ⟨0, _⟩ => ⟨S1x1x1024, .f32⟩
  | .local _ .vmem, ⟨1, _⟩ => ⟨S1x1024, .f32⟩
  | .local _ .vmem, ⟨2, _⟩ => ⟨S1x1024, .f32⟩
  | .local _ .vmem, ⟨3, _⟩ => ⟨S4096x1024, .f32⟩
  | .local _ .vmem, ⟨4, _⟩ => ⟨S4096x1024, .f32⟩
  | .local _ .vmem, ⟨5, _⟩ => ⟨S1x4096, .f32⟩
  | .local _ .vmem, ⟨6, _⟩ => ⟨S1x4096, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x2048, .f32⟩
  | .local _ .vmem, ⟨11, _⟩ => ⟨S1x2048, .f32⟩
  | .local _ .vmem, ⟨12, _⟩ => ⟨S2048x1024, .f32⟩
  | .local _ .vmem, ⟨13, _⟩ => ⟨S2048x1024, .f32⟩
  | .local _ .vmem, ⟨14, _⟩ => ⟨S1x26624, .f32⟩
  | .local _ .vmem, ⟨15, _⟩ => ⟨S1x26624, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1, .f32⟩
  | .local _ .vmem, ⟨21, _⟩ => ⟨S1x1, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev main_c_1 : Ref sig .tc := ⟨.hbm, 24, rfl⟩
abbrev main_call1_v0 : Ref sig .tc := ⟨.hbm, 25, rfl⟩
abbrev main_v7 : Ref sig .tc := ⟨.hbm, 26, rfl⟩
abbrev main_c_2 : Ref sig .tc := ⟨.hbm, 27, rfl⟩
abbrev main_call2_v0 : Ref sig .tc := ⟨.hbm, 28, rfl⟩
abbrev main_v8 : Ref sig .tc := ⟨.hbm, 29, rfl⟩
abbrev main_v9 : Ref sig .tc := ⟨.hbm, 30, rfl⟩
abbrev main_v10_0 : Ref sig .tc := ⟨.hbm, 31, rfl⟩
abbrev main_v10_1 : Ref sig .tc := ⟨.hbm, 32, rfl⟩
abbrev main_v10_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![2, 13], ![false, false]⟩

def k1_mult1 (i : grid1.Coords) : BitVec 32 :=
  let arg1 : BitVec 32 := BitVec.ofNat 32 (i 1).val
  let c2048_i32_17 : BitVec 32 := 2048#32
  let v41 : BitVec 32 := Scalar.muli arg1 c2048_i32_17
  v41
def k1_off1 (i : grid1.Coords) : Fin 2 → Nat :=
  let c0_18 : Index := 0#32
  let arg1 : BitVec 32 := BitVec.ofNat 32 (i 1).val
  let c2048_i32_17 : BitVec 32 := 2048#32
  let v41 : BitVec 32 := Scalar.muli arg1 c2048_i32_17
  let v42 : BitVec 32 := v41
  let v43 : Index := Scalar.indexCast v42
  ![0, v43.toNat]
def k1_cond2 (i : grid1.Coords) : BitVec 1 :=
  let arg1 : BitVec 32 := BitVec.ofNat 32 (i 1).val
  let c12_i32 : BitVec 32 := 12#32
  let v45 : BitVec 1 := Scalar.cmpi .eq arg1 c12_i32
  let v46 : BitVec 32 := Scalar.extui v45
  let c0_i32_19 : BitVec 32 := 0#32
  let v47 : BitVec 1 := Scalar.cmpi .ne v46 c0_i32_19
  v47

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x26624 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S1 : S_.BroadcastsInDim S1 (![] : Fin 0 → Fin S1.rank)
  shapeCasts_S1x1x1024_S1x1024 : S1x1x1024.ShapeCasts S1x1024
  shapeCasts_S4096_S1x4096 : S4096.ShapeCasts S1x4096
  shapeCasts_S50257x1024_S50257x1x1024 : S50257x1024.ShapeCasts S50257x1x1024
  inb_S1_S1_0 : ∀ a, (![0] : Fin 1 → Nat) a + S1.size a ≤ S1.size a
  numel1_S1 : S1.numel = 1
  inb_S1x1x1024_S1x1x1024_0_0_0 : ∀ a, (![0, 0, 0] : Fin 3 → Nat) a + S1x1x1024.size a ≤ S1x1x1024.size a
  h_S1x1x1024 : 0 < S1x1x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S4096x1024_S4096x1024_0_0 : ∀ a, (![0, 0] : Fin 2 → Nat) a + S4096x1024.size a ≤ S4096x1024.size a
  h_S4096x1024 : 0 < S4096x1024.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  slices_S1x4096_o0_0_S1x1024 : S1x4096.Slices ![0, 0] S1x1024
  slices_S1x4096_o0_1024_S1x1024 : S1x4096.Slices ![0, 1024] S1x1024
  slices_S1x4096_o0_2048_S1x1024 : S1x4096.Slices ![0, 2048] S1x1024
  slices_S1x4096_o0_3072_S1x1024 : S1x4096.Slices ![0, 3072] S1x1024
  pads_S50257x1024_S53248x1024_029910_000 : S50257x1024.Pads (![0, 0] : Fin 2 → Nat) ![2991, 0] ![0, 0] S53248x1024
  h_S_ : 0 < S_.numel
  pads_S50257_S53248_029910 : S50257.Pads (![0] : Fin 1 → Nat) ![2991] ![0] S53248
  shapeCasts_S53248_S1x53248 : S53248.ShapeCasts S1x53248
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S1x2048_d1_w32 : S1x2048.Iotas .tc 32 [1]
  reduces_S1x2048_S1 : S1x2048.Reduces [1] S1
  shapeCasts_S1_S1x1 : S1.ShapeCasts S1x1
  broadcasts_S1x1_S1x2048 : S1x1.Broadcasts S1x2048
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S2x1x128_S1x1x1_0_0_0 : S2x1x128.Slices ![0, 0, 0] S1x1x1
  shapeCasts_S1x1x1_S_ : S1x1x1.ShapeCasts S_
  slices_S2x1x128_S1x1x1_1_0_0 : S2x1x128.Slices ![1, 0, 0] S1x1x1
  bcast_S_S1x53248 : S_.BroadcastsInDim S1x53248 (![] : Fin 0 → Fin S1x53248.rank)
  slices_S1x53248_S1x50257_0_0 : S1x53248.Slices ![0, 0] S1x50257
  shapeCasts_S1x1024_S1x1x1024 : S1x1024.ShapeCasts S1x1x1024
  dot_S1x1024_S4096x1024_S1x4096_1_1_0_0_n_n_wf : DotDims.WF S1x1024 S4096x1024 S1x4096 [1] [1] [0] [0] [] []
  dot_S1x1024_S2048x1024_S1x2048_1_1_0_0_n_n_wf : DotDims.WF S1x1024 S2048x1024 S1x2048 [1] [1] [0] [0] [] []
  hrank0 : 0 < grid0.rank
  hstage0_0 : ∀ j, (stage0_0 j).IsWhole
  nbuf0_0 : grid0.bufCount reads0_0 false = 1
  hreads0_0 : ∀ {F : FTy → Type} [FloatOps F] (pf : pre0.Contents (Elt F)) (i i' : grid0.Coords), (∀ a, reads0_0 a = true → i a = i' a) → cc0_transform_0 inb_S1_S1_0 numel1_S1 pf i = cc0_transform_0 inb_S1_S1_0 numel1_S1 pf i'
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .f32 = 32 ∨ (Rect.block (s := S4096x1024) S4096x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .f32 = 32 ∨ (Rect.block (s := S4096x1024) S4096x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S1x2048.size a ≤ S1x26624.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x53248.size a
  hwx1_1 : ∀ i : grid1.Coords, EltTy.bits .f32 = 32 ∨ (Rect.block (s := S1x53248) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S53248x1024.size a
  hwx1_2 : ∀ i : grid1.Coords, EltTy.bits .f32 = 32 ∨ (Rect.block (s := S53248x1024) S2048x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x26624.size a ≤ S1x53248.size a
  hwx1_3 : ∀ i : grid1.Coords, EltTy.bits .f32 = 32 ∨ (Rect.block (s := S1x53248) S1x26624.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S2x1x128.size a
  hwx1_4 : ∀ i : grid1.Coords, EltTy.bits .f32 = 32 ∨ (Rect.block (s := S2x1x128) S1x1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S2x1x128.size a
  hwx1_5 : ∀ i : grid1.Coords, EltTy.bits .f32 = 32 ∨ (Rect.block (s := S2x1x128) S1x1x128.size (cc1_transform_5 i) (hinb1_5 i)).WholeWords (EltTy.packing .f32)

variable [Facts₀]

def dot_S1x1024_S4096x1024_S1x4096_1_1_0_0_n_n : DotDims S1x1024 S4096x1024 S1x4096 where
  lhsContracting := [1]
  rhsContracting := [1]
  lhsNonContracting := [0]
  rhsNonContracting := [0]
  lhsBatch := []
  rhsBatch := []
  wf := dot_S1x1024_S4096x1024_S1x4096_1_1_0_0_n_n_wf
def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf

abbrev spec0_0 : Pipeline.WinSpec sig grid0.rank :=
  Pipeline.WinSpec.ofSpec (Memref.whole main_v5) S1x1x1024.size reads0_0 false false 1 stage0_0 sem0_0 nbuf0_0 hstage0_0

abbrev spec0_1 : Pipeline.WinSpec sig grid0.rank :=
  Pipeline.WinSpec.ofSpec (Memref.whole main_v1) S1x1024.size reads0_1 false true 1 stage0_1 sem0_1 nbuf0_1 hstage0_1

abbrev spec0_2 : Pipeline.WinSpec sig grid0.rank :=
  Pipeline.WinSpec.ofSpec (Memref.whole main_v2) S1x1024.size reads0_2 false true 1 stage0_2 sem0_2 nbuf0_2 hstage0_2

abbrev spec0_3 : Pipeline.WinSpec sig grid0.rank :=
  Pipeline.WinSpec.ofSpec (Memref.whole main_arg4) S4096x1024.size reads0_3 false true 1 stage0_3 sem0_3 nbuf0_3 hstage0_3

abbrev spec0_4 : Pipeline.WinSpec sig grid0.rank :=
  Pipeline.WinSpec.ofSpec (Memref.whole main_arg5) S4096x1024.size reads0_4 false true 1 stage0_4 sem0_4 nbuf0_4 hstage0_4

abbrev spec0_5 : Pipeline.WinSpec sig grid0.rank :=
  Pipeline.WinSpec.ofSpec (Memref.whole main_v3) S1x4096.size reads0_5 false true 1 stage0_5 sem0_5 nbuf0_5 hstage0_5

abbrev spec0_6 : Pipeline.WinSpec sig grid0.rank :=
  Pipeline.WinSpec.ofSpec (Memref.whole main_v4) S1x4096.size reads0_6 false true 1 stage0_6 sem0_6 nbuf0_6 hstage0_6

abbrev spec0_7 : Pipeline.WinSpec sig grid0.rank :=
  Pipeline.WinSpec.ofSpec (Memref.whole main_v6_0) S1x1024.size reads0_7 true true 1 stage0_7 sem0_7 nbuf0_7 hstage0_7

abbrev spec0_8 : Pipeline.WinSpec sig grid0.rank :=
  Pipeline.WinSpec.ofSpec (Memref.whole main_v6_1) S1x1024.size reads0_8 true true 1 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 inb_S1_S1_0 numel1_S1 pf | 1 => cc0_transform_1 | 2 => cc0_transform_2 | 3 => cc0_transform_3 | 4 => cc0_transform_4 | 5 => cc0_transform_5 | 6 => cc0_transform_6 | 7 => cc0_transform_7 | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 | 4 => hreads0_4 | 5 => hreads0_5 | 6 => hreads0_6 | 7 => hreads0_7 | 8 => hreads0_8 | ⟨_ + 9, h⟩ => absurd h (Nat.not_lt.2 (Nat.le_add_left _ _))
def ok0 (pf : pre0.Contents (Elt F)) : Prop :=
  (∀ i : grid0.Coords, ∃ h : (∀ a, (cc0_transform_0 inb_S1_S1_0 numel1_S1 pf i a + 1) * S1x1x1024.size a ≤ S50257x1x1024.size a), EltTy.bits .f32 = 32 ∨ (Rect.block (s := S50257x1x1024) S1x1x1024.size (cc0_transform_0 inb_S1_S1_0 numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | 3 => hinb0_3 | 4 => hinb0_4 | 5 => hinb0_5 | 6 => hinb0_6 | 7 => hinb0_7 | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | 3 => hwx0_3 | 4 => hwx0_4 | 5 => hwx0_5 | 6 => hwx0_6 | 7 => hwx0_7 | 8 => hwx0_8 | ⟨_ + 9, h⟩ => absurd h (Nat.not_lt.2 (Nat.le_add_left _ _))
abbrev win1_0 : Pipeline.Window sig grid1 :=
  Pipeline.Window.ofSpec (Memref.whole main_v6_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10_0) S1x26624.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10_1) S1x1x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10_2) S1x1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S1 : Shape := ⟨1, ![1]⟩
abbrev S1x1x1024 : Shape := ⟨3, ![1, 1, 1024]⟩
abbrev S50257x1024 : Shape := ⟨2, ![50257, 1024]⟩
abbrev S4096x1024 : Shape := ⟨2, ![4096, 1024]⟩
abbrev S4096 : Shape := ⟨1, ![4096]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1024x4096 : Shape := ⟨2, ![1024, 4096]⟩
abbrev S1x4096 : Shape := ⟨2, ![1, 4096]⟩
abbrev S1024x50257 : Shape := ⟨2, ![1024, 50257]⟩
abbrev S1x50257 : Shape := ⟨2, ![1, 50257]⟩

abbrev nBuf : Space → Nat
  | .hbm => 85
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S1x1x1024, .f32⟩
  | .hbm, ⟨3, _⟩ => ⟨S50257x1024, .f32⟩
  | .hbm, ⟨4, _⟩ => ⟨S4096x1024, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S50257x1024, .f32⟩
  | .hbm, ⟨9, _⟩ => ⟨S50257, .f32⟩
  | .hbm, ⟨10, _⟩ => ⟨S_, .i32⟩
  | .hbm, ⟨11, _⟩ => ⟨S1, .i32⟩
  | .hbm, ⟨12, _⟩ => ⟨S1, .i1⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S1, .i32⟩
  | .hbm, ⟨17, _⟩ => ⟨S1x1, .i32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1024x4096, .f32⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S1024x4096, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1024x50257, .f32⟩
  | .hbm, ⟨65, _⟩ => ⟨S1x50257, .f32⟩
  | .hbm, ⟨66, _⟩ => ⟨S1x50257, .f32⟩
  | .hbm, ⟨67, _⟩ => ⟨S1x50257, .f32⟩
  | .hbm, ⟨68, _⟩ => ⟨S_, .f32⟩
  | .hbm, ⟨69, _⟩ => ⟨S1, .f32⟩
  | .hbm, ⟨70, _⟩ => ⟨S_, .f32⟩
  | .hbm, ⟨71, _⟩ => ⟨S1, .f32⟩
  | .hbm, ⟨72, _⟩ => ⟨S1, .f32⟩
  | .hbm, ⟨73, _⟩ => ⟨S1x1, .f32⟩
  | .hbm, ⟨74, _⟩ => ⟨S1x50257, .f32⟩
  | .hbm, ⟨75, _⟩ => ⟨S1x50257, .f32⟩
  | .hbm, ⟨76, _⟩ => ⟨S1x50257, .f32⟩
  | .hbm, ⟨77, _⟩ => ⟨S_, .f32⟩
  | .hbm, ⟨78, _⟩ => ⟨S1, .f32⟩
  | .hbm, ⟨79, _⟩ => ⟨S1x1, .f32⟩
  | .hbm, ⟨80, _⟩ => ⟨S1x1, .f32⟩
  | .hbm, ⟨81, _⟩ => ⟨S1x50257, .f32⟩
  | .hbm, ⟨82, _⟩ => ⟨S1x50257, .f32⟩
  | .hbm, ⟨83, _⟩ => ⟨S1x1x1024, .f32⟩
  | .hbm, ⟨84, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_cst : Ref sig .tc := ⟨.hbm, 68, rfl⟩
abbrev main_call0_v0 : Ref sig .tc := ⟨.hbm, 69, rfl⟩
abbrev main_call0_cst_0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_cst_1 : Ref sig .tc := ⟨.hbm, 77, rfl⟩
abbrev main_call0_v7 : Ref sig .tc := ⟨.hbm, 78, rfl⟩
abbrev main_call0_v8 : Ref sig .tc := ⟨.hbm, 79, rfl⟩
abbrev main_call0_v9 : Ref sig .tc := ⟨.hbm, 80, rfl⟩
abbrev main_call0_v10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  transposes_S4096x1024_S1024x4096_1_0 : S4096x1024.Transposes [1, 0] S1024x4096
  bcast_S4096_S1x4096_1 : S4096.BroadcastsInDim S1x4096 (![1] : Fin 1 → Fin S1x4096.rank)
  slices_S1x4096_S1x1024_0_0 : S1x4096.Slices ![0, 0] S1x1024
  slices_S1x4096_S1x1024_0_1024 : S1x4096.Slices ![0, 1024] S1x1024
  slices_S1x4096_S1x1024_0_2048 : S1x4096.Slices ![0, 2048] S1x1024
  slices_S1x4096_S1x1024_0_3072 : S1x4096.Slices ![0, 3072] S1x1024
  bcast_S_S1x1024 : S_.BroadcastsInDim S1x1024 (![] : Fin 0 → Fin S1x1024.rank)
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  h_S_ : 0 < S_.numel
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x1024_S1024x4096_S1x4096_1_0_0_1_n_n_wf : DotDims.WF S1x1024 S1024x4096 S1x4096 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.K0Body.lean ====
import proofs.«424948_j65738769433295_3_alg».proof.Proof.Gen.KernelIdeal.Launch
import proofs.«424948_j65738769433295_3_alg».proof.Proof.Gen.KernelIdeal.Skeleton
import proofs.«424948_j65738769433295_3_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Pipeline.Value
import Idealize.ShloMosaic.Lib.ValueIdx
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (ix1 ix3)

variable {F : FTy → Type} [FloatOps F] [Named F]

local notation "𝕄" => MT nD τ sig Unit (Elt F) ℕ (UR sig nD τ) ℕ
local notation "𝕡" => Pipeline.pin (pcfgs (F := F))

section Region0

variable (V : (c : Dev nD) → (b : Ref sig .tc) → Buf (Elt F) ((c : Thread nD τ).loc b))
variable (a : (p : Fin 2) → (pcfgs (F := F) p).Adm)

def iblk0 (c : Dev nD) (w : Fin 9) (t : Fin grid0.N) :
    (((𝕡 a 0).win w).xblock ((𝕡 a 0).grid.coords t)).Idx → Elt F ((𝕡 a 0).win w).elt :=
  (((𝕡 a 0).win w).blk t).view.read (Elt F) (V c (Pipeline.arrRef spec0 w))

abbrev r0_e : Rect S1x1x1024 := Rect.unit (s := S1x1x1024) ![0, 0, 0] S1x1x1024.size inb_S1x1x1024_S1x1x1024_0_0_0
abbrev r0_v : Rect S1x1024 := Rect.unit (s := S1x1024) ![0, 0] S1x1024.size inb_S1x1024_S1x1024_0_0
abbrev r0_w : Rect S4096x1024 := Rect.unit (s := S4096x1024) ![0, 0] S4096x1024.size inb_S4096x1024_S4096x1024_0_0
abbrev r0_b : Rect S1x4096 := Rect.unit (s := S1x4096) ![0, 0] S1x4096.size inb_S1x4096_S1x4096_0_0

theorem zero2 : (![0, 0] : Fin 2 → ℕ) = fun _ => 0 := by decide
theorem zero3 : (![0, 0, 0] : Fin 3 → ℕ) = fun _ => 0 := by decide

abbrev Fn0 (β : Type) := Vec F S1x1x1024 .f32 → Vec F S1x1024 .f32 → Vec F S1x1024 .f32 → Vec F S4096x1024 .f32 → Vec F S4096x1024 .f32 → Vec F S1x4096 .f32 → Vec F S1x4096 .f32 → β

section Body

variable (k : Fn0 (F := F) (Vec F S1x1024 .f32)) (x0 : Vec F S1x1x1024 .f32) (x1 x2 : Vec F S1x1024 .f32) (x3 x4 : Vec F S4096x1024 .f32) (x5 x6 : Vec F S1x4096 .f32)

def out0 : Vec F S1x1024 .f32 :=
  View.canon [⟨r0_v, k (View.ld x0 r0_e) (View.ld x1 r0_v) (View.ld x2 r0_v) (View.ld x3 r0_w) (View.ld x4 r0_w) (View.ld x5 r0_b) (View.ld x6 r0_b)⟩]

-- Every load and the one store is of a whole buffer: the loads read the contents, the store leaves its payload.
theorem out0_eq : out0 k x0 x1 x2 x3 x4 x5 x6 = k x0 x1 x2 x3 x4 x5 x6 := by
  simp only [out0, View.canon_unit_zero (S := S1x1024) zero2, View.ld_unit_zero (S := S1x1x1024) zero3, View.ld_unit_zero (S := S1x1024) zero2,
    View.ld_unit_zero (S := S4096x1024) zero2, View.ld_unit_zero (S := S1x4096) zero2]

theorem cover0_v (p0 : Vec F S1x1024 .f32) (y : S1x1024.Idx) :
    ∃ pc ∈ ([⟨r0_v, p0⟩] : List (View.Piece (Elt F) S1x1024 .f32)), y ∈ pc.1.set :=
  View.cover_of_tiled [⟨r0_v, p0⟩] S1x1024.size (by rfl) y

theorem sound_kernel0 (c : Dev nD) (E : Set ℕ) (i : grid0.Coords)
    (arg1 : Memref sig .tc .smem S1 .i32) (harg1 : arg1.IsWhole)
    (arg2 : Memref sig .tc .vmem S1x1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S4096x1024 .f32) (harg5 : arg5.IsWhole)
    (arg6 : Memref sig .tc .vmem S4096x1024 .f32) (harg6 : arg6.IsWhole)
    (arg7 : Memref sig .tc .vmem S1x4096 .f32) (harg7 : arg7.IsWhole)
    (arg8 : Memref sig .tc .vmem S1x4096 .f32) (harg8 : arg8.IsWhole)
    (arg9 : Memref sig .tc .vmem S1x1024 .f32) (harg9 : arg9.IsWhole)
    (arg10 : Memref sig .tc .vmem S1x1024 .f32) (harg10 : arg10.IsWhole)
    (y7 y8 : Vec F S1x1024 .f32) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6
        ∗ owns c arg9 fullShare y7 ∗ owns c arg10 fullShare y8
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6
            ∗ owns c arg9 fullShare (out0 k0_pay3 x0 x1 x2 x3 x4 x5 x6)
            ∗ owns c arg10 fullShare (out0 k0_pay2 x0 x1 x2 x3 x4 x5 x6)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, -, H7⟩, ⟨%f8, -, H8⟩, Hk⟩
  subst hf0 hf1 hf2 hf3 hf4 hf5 hf6
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]
  · iexists _; iframe H7; ipureintro
    exact View.read_writes_eq_canon _ _ _ (cover0_v _)
  iexists _; iframe H8; ipureintro
  exact View.read_writes_eq_canon _ _ _ (cover0_v _)

end Body

abbrev at0 {β : Type} (k : Fn0 (F := F) β) (c : Dev nD) (t : Fin grid0.N) : β :=
  k (iblk0 V a c 0 t) (iblk0 V a c 1 t) (iblk0 V a c 2 t) (iblk0 V a c 3 t) (iblk0 V a c 4 t) (iblk0 V a c 5 t) (iblk0 V a c 6 t)

def hOut (c : Dev nD) : Vec F S1x1024 .f32 :=
  at0 V a (out0 k0_pay3) c t0_0

def cOut (c : Dev nD) : Vec F S1x1024 .f32 :=
  at0 V a (out0 k0_pay2) c t0_0

theorem hOut_eq (c : Dev nD) :
    hOut V a c = k0_pay3 (iblk0 V a c 0 t0_0) (iblk0 V a c 1 t0_0) (iblk0 V a c 2 t0_0) (iblk0 V a c 3 t0_0) (iblk0 V a c 4 t0_0) (iblk0 V a c 5 t0_0) (iblk0 V a c 6 t0_0) := out0_eq ..

theorem cOut_eq (c : Dev nD) :
    cOut V a c = k0_pay2 (iblk0 V a c 0 t0_0) (iblk0 V a c 1 t0_0) (iblk0 V a c 2 t0_0) (iblk0 V a c 3 t0_0) (iblk0 V a c 4 t0_0) (iblk0 V a c 5 t0_0) (iblk0 V a c 6 t0_0) := out0_eq ..

def dat0 (c : Dev nD) : Dat τ (Elt F) Unit ℕ (UR sig nD τ) ℕ (𝕡 a 0) c where
  A w := V c (Pipeline.arrRef spec0 w)
  after := fun (w : Fin 9) (t : Fin grid0.N) => match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => iblk0 V a c 4 t
    | ⟨5, _⟩ => iblk0 V a c 5 t
    | ⟨6, _⟩ => iblk0 V a c 6 t
    | ⟨7, _⟩ => at0 V a (out0 k0_pay3) c t
    | ⟨8, _⟩ => at0 V a (out0 k0_pay2) c t
  Φ _ := iprop(Pipeline.ΦA spec0 c ∗ Pipeline.prefHeld pre0 c (fun _ => fullShare) (a 0).1)
  q _ := fullShare
  owed _ := 0

-- Windows 0 to 6 are inputs, and the body leaves in an input's buffer the block it finds there.
theorem input0 (c : Dev nD) (w : Fin 9) (hw : w.val < 7) :
    ((𝕡 a 0).win w).isOut = false ∧ ∀ t d, (dat0 V a c).before w t d = (dat0 V a c).after w t := by
  match w, hw with
  | ⟨0, _⟩, _ | ⟨1, _⟩, _ | ⟨2, _⟩, _ | ⟨3, _⟩, _ | ⟨4, _⟩, _ | ⟨5, _⟩, _ | ⟨6, _⟩, _ =>
    exact ⟨rfl, fun t d => ((dat0 V a c).before_in_eq_fetched _ rfl (fun _ => rfl) (fun _ _ _ => rfl) (fun _ => rfl) t d).trans rfl⟩
  | ⟨n + 7, _⟩, h => exact absurd h (Nat.not_lt.2 (Nat.le_add_left _ _))

theorem body_obligation0 (c : Dev nD) : BodyObligation (dat0 (F := F) V a c) (defs₀ (F := F)) Variants.none () Set.univ := fun t => by
  rw [bigSep_W0, bigSep_W0]
  simp (disch := decide) only [(input0 V a c _ _).2]
  rw [show (dat0 V a c).owesAt () t.succ = (dat0 V a c).owesAt () t.castSucc from rfl]
  dsimp only [dat0, at0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  sl_whnfR [defs₀, Defs.onTc]
  iapply (sound_kernel0 _ _ _ _ _ _ _ c Set.univ _ _ _ _ _ _ _ _ _ _ _ _ _ _ _ _ _ _ _ _ _ _ _ _)
  iframe H0 H1 H2 H3 H4 H5 H6 H7 H8
  iintro H
  iframe

-- A window whose block is its whole array embeds every index at itself: reading through it reads the array, and it covers the array.

theorem emb0_7 (t : Fin grid0.N) (j : S1x1024.Idx) : (((𝕡 a 0).win (7 : Fin 9)).blk t).view.emb j = j :=
  funext fun d => Fin.ext (by match d with | ⟨0, _⟩ | ⟨1, _⟩ => exact (Nat.zero_add _).trans (Nat.one_mul _))

theorem read0_7 (t : Fin grid0.N) (G : Vec F S1x1024 .f32) : (((𝕡 a 0).win (7 : Fin 9)).blk t).view.read (Elt F) G = G :=
  funext fun j => congrArg G (emb0_7 a t j)

theorem arr7_final (c : Dev nD) : (dat0 V a c).arrAt (7 : Fin 9) (𝕡 a 0).N = hOut V a c :=
  (dat0 V a c).arrAt_eq_of_cover (7 : Fin 9) (hOut V a c)
    (fun t _ => by rw [read0_7]; show (dat0 V a c).after (7 : Fin 9) t = _; rw [fin_N0 t]; dsimp only [dat0, hOut])
    fun i => ⟨t0_0, (Pipeline.Window.flush_out _ rfl t0_0).mpr (.inl rfl), emb0_7 a t0_0 i ▸ View.emb_mem_set _ i⟩

theorem emb0_8 (t : Fin grid0.N) (j : S1x1024.Idx) : (((𝕡 a 0).win (8 : Fin 9)).blk t).view.emb j = j :=
  funext fun d => Fin.ext (by match d with | ⟨0, _⟩ | ⟨1, _⟩ => exact (Nat.zero_add _).trans (Nat.one_mul _))

theorem read0_8 (t : Fin grid0.N) (G : Vec F S1x1024 .f32) : (((𝕡 a 0).win (8 : Fin 9)).blk t).view.read (Elt F) G = G :=
  funext fun j => congrArg G (emb0_8 a t j)

theorem arr8_final (c : Dev nD) : (dat0 V a c).arrAt (8 : Fin 9) (𝕡 a 0).N = cOut V a c :=
  (dat0 V a c).arrAt_eq_of_cover (8 : Fin 9) (cOut V a c)
    (fun t _ => by rw [read0_8]; show (dat0 V a c).after (8 : Fin 9) t = _; rw [fin_N0 t]; dsimp only [dat0, cOut])
    fun i => ⟨t0_0, (Pipeline.Window.flush_out _ rfl t0_0).mpr (.inl rfl), emb0_8 a t0_0 i ▸ View.emb_mem_set _ i⟩

theorem arr_in0 (c : Dev nD) (w : Fin 9) (hw : w.val < 7) (n : ℕ) : (dat0 V a c).arrAt w n = V c (Pipeline.arrRef spec0 w) :=
  (dat0 V a c).arrAt_in w (input0 V a c w hw).1 n

def row0 : ℕ := ((a 0).1 0 (ix1 0)).toNat

theorem index0_0 (i : grid0.Coords) : cc0_transform_0 inb_S1_S1_0 numel1_S1 (a 0).1 i 0 = row0 a :=
  congrArg (fun j => ((a 0).1 0 j).toNat) (funext fun d => by match d with | ⟨0, _⟩ => rfl)

-- The admitted table's word names a row of the embedding array: the block it selects lies inside the array.
theorem row0_lt : row0 a < 50257 := by
  obtain ⟨h, -⟩ := (a 0).2 (grid0.coords t0_0)
  have h0 : (cc0_transform_0 inb_S1_S1_0 numel1_S1 (a 0).1 (grid0.coords t0_0) 0 + 1) * 1 ≤ 50257 := h 0
  rw [index0_0] at h0
  omega

theorem iblk0_0 (c : Dev nD) (t : Fin grid0.N) (y0 y1 : Fin 1) (y2 : Fin 1024) :
    iblk0 V a c 0 t (ix3 y0 y1 y2) = V c main_v5 (ix3 ⟨row0 a, row0_lt a⟩ y1 y2) := by
  show V c main_v5 ((((𝕡 a 0).win (0 : Fin 9)).blk t).view.emb (ix3 y0 y1 y2)) = _
  refine congrArg (V c main_v5) ?_
  funext d; apply Fin.ext
  match d with
  | ⟨0, _⟩ =>
    show cc0_transform_0 inb_S1_S1_0 numel1_S1 (a 0).1 (grid0.coords t) 0 * 1 + 1 * y0.val = row0 a
    rw [index0_0]; have := y0.isLt; omega
  | ⟨1, _⟩ | ⟨2, _⟩ => exact (Nat.zero_add _).trans (Nat.one_mul _)

theorem iblk0_1 (c : Dev nD) (t : Fin grid0.N) : iblk0 V a c 1 t = V c main_v1 :=
  funext fun (y : S1x1024.Idx) => congrArg (V c main_v1) (funext fun d => Fin.ext (by match d with | ⟨0, _⟩ | ⟨1, _⟩ => exact (Nat.zero_add _).trans (Nat.one_mul _)))
theorem iblk0_2 (c : Dev nD) (t : Fin grid0.N) : iblk0 V a c 2 t = V c main_v2 :=
  funext fun (y : S1x1024.Idx) => congrArg (V c main_v2) (funext fun d => Fin.ext (by match d with | ⟨0, _⟩ | ⟨1, _⟩ => exact (Nat.zero_add _).trans (Nat.one_mul _)))
theorem iblk0_3 (c : Dev nD) (t : Fin grid0.N) : iblk0 V a c 3 t = V c main_arg4 :=
  funext fun (y : S4096x1024.Idx) => congrArg (V c main_arg4) (funext fun d => Fin.ext (by match d with | ⟨0, _⟩ | ⟨1, _⟩ => exact (Nat.zero_add _).trans (Nat.one_mul _)))
theorem iblk0_4 (c : Dev nD) (t : Fin grid0.N) : iblk0 V a c 4 t = V c main_arg5 :=
  funext fun (y : S4096x1024.Idx) => congrArg (V c main_arg5) (funext fun d => Fin.ext (by match d with | ⟨0, _⟩ | ⟨1, _⟩ => exact (Nat.zero_add _).trans (Nat.one_mul _)))
theorem iblk0_5 (c : Dev nD) (t : Fin grid0.N) : iblk0 V a c 5 t = V c main_v3 :=
  funext fun (y : S1x4096.Idx) => congrArg (V c main_v3) (funext fun d => Fin.ext (by match d with | ⟨0, _⟩ | ⟨1, _⟩ => exact (Nat.zero_add _).trans (Nat.one_mul _)))
theorem iblk0_6 (c : Dev nD) (t : Fin grid0.N) : iblk0 V a c 6 t = V c main_v4 :=
  funext fun (y : S1x4096.Idx) => congrArg (V c main_v4) (funext fun d => Fin.ext (by match d with | ⟨0, _⟩ | ⟨1, _⟩ => exact (Nat.zero_add _).trans (Nat.one_mul _)))

end Region0

end Cert.KernelIdeal.Hand

end
-- ==== Proof.K1Defs.lean ====
import proofs.«424948_j65738769433295_3_alg».proof.Proof.Gen.KernelIdeal.Launch
import proofs.«424948_j65738769433295_3_alg».proof.Proof.Gen.KernelIdeal.Skeleton
import proofs.«424948_j65738769433295_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe

variable {F : FTy → Type} [FloatOps F] [Named F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def pt1 (n : ℕ) : Fin cfg1.N := ⟨n % 26, Nat.lt_of_lt_of_eq (Nat.mod_lt _ (by decide)) N_1.symm⟩

theorem pt1_val (t : Fin cfg1.N) : pt1 t.val = t :=
  Fin.ext (Nat.mod_eq_of_lt (Nat.lt_of_lt_of_eq t.isLt N_1))

def tileAt (c : Dev nD) (t : Fin cfg1.N) : Vec F S1x2048 .f32 :=
  k1_pay7 (grid1.coords t) (iblk1 V c 0 t) (iblk1 V c 2 t) (iblk1 V c 1 t)

def mNext (c : Dev nD) (t : Fin cfg1.N) (m0 : Vec F S1x1 .f32) : Vec F S1x1 .f32 :=
  k1_pay2 (k1_pay8 (grid1.coords t) (iblk1 V c 0 t) (iblk1 V c 2 t) (iblk1 V c 1 t) m0)

def lNext (c : Dev nD) (t : Fin cfg1.N) (m0 l0 : Vec F S1x1 .f32) : Vec F S1x1 .f32 :=
  k1_pay1 (k1_pay9 (grid1.coords t) (iblk1 V c 0 t) (iblk1 V c 2 t) (iblk1 V c 1 t) m0 l0)

def scM (c : Dev nD) : ℕ → Vec F S1x1 .f32
  | 0 => k1_pay5
  | n + 1 => mNext V c (pt1 n) (if n % 13 = 0 then k1_pay5 else scM c n)

def scL (c : Dev nD) : ℕ → Vec F S1x1 .f32
  | 0 => k1_pay6
  | n + 1 => lNext V c (pt1 n) (if n % 13 = 0 then k1_pay5 else scM V c n) (if n % 13 = 0 then k1_pay6 else scL c n)

theorem scM_succ (c : Dev nD) (n : ℕ) :
    scM V c (n + 1) = mNext V c (pt1 n) (if n % 13 = 0 then k1_pay5 else scM V c n) := rfl

theorem scL_succ (c : Dev nD) (n : ℕ) :
    scL V c (n + 1) = lNext V c (pt1 n) (if n % 13 = 0 then k1_pay5 else scM V c n) (if n % 13 = 0 then k1_pay6 else scL V c n) := rfl

def tileIdx (k : ℕ) : S1x2048.Idx :=
  Shape.pair (d := ![1, 2048]) ⟨0, by decide⟩ ⟨k % 2048, Nat.mod_lt _ (by decide)⟩

def laneIdx (k : Fin 128) : S1x1x128.Idx := fun a => match a with
  | ⟨0, _⟩ => (⟨0, by decide⟩ : Fin 1)
  | ⟨1, _⟩ => (⟨0, by decide⟩ : Fin 1)
  | ⟨2, _⟩ => k
  | ⟨_ + 3, h⟩ => absurd h (Nat.not_lt.2 (Nat.le_add_left _ _))

def logitsOut (c : Dev nD) : Buf (Elt F) ((c : Thread nD τ).loc main_v10_0) :=
  fun (j : S1x53248.Idx) => tileAt V c (pt1 ((j 1).val / 2048)) (tileIdx (j 1).val)

def mOut (c : Dev nD) : Buf (Elt F) ((c : Thread nD τ).loc main_v10_1) :=
  fun (j : S2x1x128.Idx) => k1_pay3 (scM V c (13 * (j 0).val + 13)) (laneIdx (j 2))

def lOut (c : Dev nD) : Buf (Elt F) ((c : Thread nD τ).loc main_v10_2) :=
  fun (j : S2x1x128.Idx) => k1_pay4 (scL V c (13 * (j 0).val + 13)) (laneIdx (j 2))

end Cert.KernelIdeal.Hand

end
-- ==== Proof.RunVals.lean ====
import proofs.«424948_j65738769433295_3_alg».proof.Proof.Gen.KernelIdeal.Regions
import proofs.«424948_j65738769433295_3_alg».proof.Proof.K0Body
import proofs.«424948_j65738769433295_3_alg».proof.Proof.K1Defs
import Idealize.ShloMosaic.Lib.Pipeline.FrameSuffix

noncomputable section

namespace Cert.KernelIdeal.Hand

open Cert.KernelIdeal Cert.KernelIdeal.Gen
open Idealize.ShloMosaic Idealize.ShloMosaic.TcCoe

variable {F : FTy → Type} [FloatOps F] [Named F]

local notation "𝕡" => Pipeline.pin (pcfgs (F := F))

variable (m : (ℓ : Loc nD τ sig) → Buf (Elt F) ℓ)
variable (a : (p : Fin 2) → (pcfgs (F := F) p).Adm)

abbrev E0 : (c : Dev nD) → (b : Ref sig .tc) → Buf (Elt F) ((c : Thread nD τ).loc b) := fun c b => V3 m c b

/-- After region 0: a window's array is what the write-backs made of it, any other buffer what it held on entry. -/
def W4 (c : Dev nD) : Valuation τ sig (Elt F) :=
  Pipeline.withArrays spec0 c (V3 m c) fun w => (dat0 (E0 m) a c).arrAt w (𝕡 a 0).N

theorem W4_arr (c : Dev nD) (w : Fin (𝕡 a 0).W) :
    W4 m a c (Proc.devRef .tc (Pipeline.arrRef spec0 w)) = (dat0 (E0 m) a c).arrAt w (𝕡 a 0).N :=
  Pipeline.withArrays_arr spec0 winFacts0.arr_inj c _ _ w

theorem W4_of_ne (c : Dev nD) (b : Ref sig .tc) (hb : ∀ w, Pipeline.arrRef spec0 w ≠ b) :
    W4 m a c (Proc.devRef .tc b) = V3 m c (Proc.devRef .tc b) :=
  Pipeline.withArrays_of_ne spec0 c _ _ b hb

abbrev X0 : (c : Dev nD) → (b : Ref sig .tc) → Buf (Elt F) ((c : Thread nD τ).loc b) := fun c b => W4 m a c b

/-- Region 0 writes its two results' arrays only. -/
theorem W4_of (c : Dev nD) (r : Ref sig .tc) (h : r ∉ ([main_v6_0, main_v6_1] : List (Ref sig .tc))) :
    W4 m a c (Proc.devRef .tc r) = V3 m c (Proc.devRef .tc r) := by
  by_cases h' : ∃ w : Fin 9, Pipeline.arrRef spec0 w = r
  · obtain ⟨w, rfl⟩ := h'
    exact (W4_arr m a c w).trans (arr_in0 (E0 m) a c w
      ((by decide : ∀ w : Fin 9, Pipeline.arrRef spec0 w ∉ ([main_v6_0, main_v6_1] : List (Ref sig .tc)) → w.val < 7) w h) _)
  · exact W4_of_ne m a c r fun w e => h' ⟨w, e⟩

abbrev W5 (c : Dev nD) : Valuation τ sig (Elt F) := StableHlo.after hostOps1 (W4 m a c)
abbrev W6 (c : Dev nD) : Valuation τ sig (Elt F) := StableHlo.after hostOps1_1 (W5 m a c)
abbrev W7 (c : Dev nD) : Valuation τ sig (Elt F) := StableHlo.after hostOps1_2 (W6 m a c)
abbrev W8 (c : Dev nD) : Valuation τ sig (Elt F) := StableHlo.after hostOps1_3 (W7 m a c)
abbrev W9 (c : Dev nD) : Valuation τ sig (Elt F) := StableHlo.after hostOps1_4 (W8 m a c)

/-- A buffer none of the five stretches between the regions writes is entered into region 1 as region 0 left it. -/
theorem W9_of (c : Dev nD) (r : Ref sig .tc) (h1 : r ∉ hostOps1_W) (h2 : r ∉ hostOps1_1_W) (h3 : r ∉ hostOps1_2_W)
    (h4 : r ∉ hostOps1_3_W) (h5 : r ∉ hostOps1_4_W) : W9 m a c (Proc.devRef .tc r) = W4 m a c (Proc.devRef .tc r) :=
  (StableHlo.after_of_writes_sub hostOps1_4 _ hostOps1_4_writes h5).trans <|
    (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans <|
    StableHlo.after_of_writes_sub hostOps1 _ hostOps1_writes h1

abbrev E1 : (c : Dev nD) → (b : Ref sig .tc) → Buf (Elt F) ((c : Thread nD τ).loc b) := fun c b => W9 m a c b

/-- Region 1's arrays as it leaves them: the inputs as entered, the three results at their named values. -/
def fin1 (c : Dev nD) : (w : Fin 6) → Buf (Elt F) ((spec1 w).arr.view.loc (c : Thread nD τ))
  | ⟨3, _⟩ => logitsOut (E1 m a) c
  | ⟨4, _⟩ => mOut (E1 m a) c
  | ⟨5, _⟩ => lOut (E1 m a) c
  | w => E1 m a c (Pipeline.arrRef spec1 w)

def W10 (c : Dev nD) : Valuation τ sig (Elt F) := Pipeline.withArrays spec1 c (W9 m a c) (fin1 m a c)

theorem W10_arr (c : Dev nD) (w : Fin 6) : W10 m a c (Proc.devRef .tc (Pipeline.arrRef spec1 w)) = fin1 m a c w :=
  Pipeline.withArrays_arr spec1 winFacts1.arr_inj c _ _ w

theorem W10_of_ne (c : Dev nD) (b : Ref sig .tc) (hb : ∀ w, Pipeline.arrRef spec1 w ≠ b) :
    W10 m a c (Proc.devRef .tc b) = W9 m a c (Proc.devRef .tc b) :=
  Pipeline.withArrays_of_ne spec1 c _ _ b hb

abbrev X1 : (c : Dev nD) → (b : Ref sig .tc) → Buf (Elt F) ((c : Thread nD τ).loc b) := fun c b => W10 m a c b

/-- Region 1 writes its three results' arrays only. -/
theorem W10_of (c : Dev nD) (r : Ref sig .tc) (h : r ∉ ([main_v10_0, main_v10_1, main_v10_2] : List (Ref sig .tc))) :
    W10 m a c (Proc.devRef .tc r) = W9 m a c (Proc.devRef .tc r) := by
  by_cases h' : ∃ w : Fin 6, Pipeline.arrRef spec1 w = r
  · obtain ⟨w, rfl⟩ := h'
    refine (W10_arr m a c w).trans ?_
    match w, (by decide : ∀ w : Fin 6, Pipeline.arrRef spec1 w ∉ ([main_v10_0, main_v10_1, main_v10_2] : List (Ref sig .tc)) → w.val < 3) w h with
    | ⟨0, _⟩, _ => rfl
    | ⟨1, _⟩, _ => rfl
    | ⟨2, _⟩, _ => rfl
  · exact W10_of_ne m a c r fun w e => h' ⟨w, e⟩

def Wfin (c : Dev nD) : Valuation τ sig (Elt F) := StableHlo.after hostOps2 (W10 m a c)

abbrev args : List (Ref sig .tc) :=
  [main_arg0, main_arg1, main_arg2, main_arg3, main_arg4, main_arg5, main_arg6, main_arg7, main_arg8, main_arg9]

/-- No item of the program writes an argument array: each ends as launched. -/
theorem Wfin_arg (c : Dev nD) (r : Ref sig .tc) (h : r ∈ args) :
    Wfin m a c (Proc.devRef .tc r) = m ((c : Thread nD τ).loc r) :=
  have d {W : List (Ref sig .tc)} (k : ∀ r ∈ args, r ∉ W) : r ∉ W := k r h
  (StableHlo.after_of_writes_sub hostOps2 _ hostOps2_writes (d (by decide))).trans <|
    (W10_of m a c r (d (by decide))).trans <|
    (W9_of m a c r (d (by decide)) (d (by decide)) (d (by decide)) (d (by decide)) (d (by decide))).trans <|
    (W4_of m a c r (d (by decide))).trans <| (V3_of m c r (d (by decide))).trans <|
    (V2_of m c r (d (by decide))).trans <| (V1_of m c r (d (by decide))).trans rfl

theorem W10_main_v10_0 (c : Dev nD) : W10 m a c (Proc.devRef .tc main_v10_0) = logitsOut (E1 m a) c := W10_arr m a c 3
theorem W10_main_v10_1 (c : Dev nD) : W10 m a c (Proc.devRef .tc main_v10_1) = mOut (E1 m a) c := W10_arr m a c 4
theorem W10_main_v10_2 (c : Dev nD) : W10 m a c (Proc.devRef .tc main_v10_2) = lOut (E1 m a) c := W10_arr m a c 5

/-- Region 0's two results reach region 1, and pass it, untouched. -/
theorem E1_main_v6_0 (c : Dev nD) : E1 m a c main_v6_0 = hOut (E0 m) a c :=
  (W9_of m a c main_v6_0 (by decide) (by decide) (by decide) (by decide) (by decide)).trans <|
    (W4_arr m a c 7).trans (arr7_final (E0 m) a c)
theorem W10_main_v6_0 (c : Dev nD) : W10 m a c (Proc.devRef .tc main_v6_0) = hOut (E0 m) a c :=
  (W10_of m a c main_v6_0 (by decide)).trans (E1_main_v6_0 m a c)
theorem W10_main_v6_1 (c : Dev nD) : W10 m a c (Proc.devRef .tc main_v6_1) = cOut (E0 m) a c :=
  (W10_of m a c main_v6_1 (by decide)).trans <|
    (W9_of m a c main_v6_1 (by decide) (by decide) (by decide) (by decide) (by decide)).trans <|
    (W4_arr m a c 8).trans (arr8_final (E0 m) a c)

end Cert.KernelIdeal.Hand

end
-- ==== Proof.K1Body.lean ====
import proofs.«424948_j65738769433295_3_alg».proof.Proof.K1Defs
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem hz2 : (![0, 0] : Fin 2 → ℕ) = fun _ => 0 := funext fun a => by fin_cases a <;> rfl
theorem hz3 : (![0, 0, 0] : Fin 3 → ℕ) = fun _ => 0 := funext fun a => by fin_cases a <;> rfl

-- a covering store made last decides what is read
theorem read_writes_last_whole {κ sp S e} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

-- one store changes the rectangle it covers and nothing else
theorem read_writes_single_overlay {κ sp S e} (v : View sig κ sp S e) (f : v.ty.Contents (Elt F))
    (r : Rect S) (w : r.shape.Idx → Elt F e) :
    v.read (Elt F) (v.writes (Elt F) f [(⟨r, w⟩ : View.Piece (Elt F) S e)]) = r.overlay (v.read (Elt F) f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy]
    exact View.read_writes_apply_of_forall_not_mem v f y _ fun p hp => by
      rw [List.mem_singleton.mp hp]; exact hy

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

-- the tile index of point t is t mod 13
theorem hcond1 : ∀ t : Fin grid1.N, (cond1_0 (grid1.coords t) ↔ t.val % 13 = 0) ∧ (cond1_1 (grid1.coords t) ↔ t.val % 13 = 12) := by
  decide +kernel

variable (V : (c : Dev nD) → (b : Ref sig .tc) → Buf (Elt F) ((c : Thread nD τ).loc b))
variable (a : (p : Fin 2) → (pcfgs (F := F) p).Adm)

abbrev r3 (i : grid1.Coords) : Rect S1x26624 := Rect.unit (s := S1x26624) (k1_off1 i) S1x2048.size (k1_off1_inb i)

-- before point n the two scratch cells hold the running maximum and the running sum (before the first point, anything)
def Φ1 (c : Dev nD) (n : ℕ) : sProp 𝕄 :=
  iprop(Pipeline.scopedRestBut (Ix := Unit) (Name := ℕ) (U := UR sig nD τ) (Lvl := ℕ) (Val := Elt F) spec1 c [cc1_scratch0, cc1_scratch1]
      ∗ (∃ r, prngReg c r)
      ∗ (∃ d, ⌜n ≠ 0 → d = scM V c n⌝ ∗ owns (c : Thread nD τ) (Memref.whole cc1_scratch0) fullShare d)
      ∗ (∃ d, ⌜n ≠ 0 → d = scL V c n⌝ ∗ owns (c : Thread nD τ) (Memref.whole cc1_scratch1) fullShare d))

def rdat1 (c : Dev nD) : Pipeline.RDat τ (Elt F) Unit ℕ (UR sig nD τ) ℕ (Pipeline.pin (pcfgs (F := F)) a 1) c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = (r3 (grid1.coords t)).overlay Y (tileAt V c t)
    | ⟨4, _⟩ => fun Y X => X = if t.val % 13 = 12 then k1_pay3 (scM V c (t.val + 1)) else Y
    | ⟨5, _⟩ => fun Y X => X = if t.val % 13 = 12 then k1_pay4 (scL V c (t.val + 1)) else Y
  Φ t := Φ1 V c t.val
  q _ := fullShare
  owed _ := 0

theorem A_eq1 (c : Dev nD) (w : Fin cfg1.W) : (rdat1 V a c).A w = V c (Pipeline.arrRef spec1 w) := rfl

theorem scopedRest1_split (c : Dev nD) :
    (Pipeline.scopedRest (Ix := Unit) (Name := ℕ) (U := UR sig nD τ) (Lvl := ℕ) (Val := Elt F) spec1 c : sProp 𝕄)
      = iprop(((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f))
        ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

theorem Φ1_in (c : Dev nD) : (Pipeline.ΦA spec1 c : sProp 𝕄) ⊢ (rdat1 V a c).Φ 0 := by
  show (Pipeline.ΦA spec1 c : sProp 𝕄) ⊢ Φ1 V c 0
  unfold Pipeline.ΦA Φ1
  rw [scopedRest1_split]
  simp only [owns_whole]
  iintro ⟨⟨⟨⟨%f0, H0⟩, ⟨%f1, H1⟩⟩, Hrest⟩, Hr⟩
  iframe Hrest Hr
  isplitl [H0]
  · iexists f0; isplitr; · ipureintro; intro h; exact absurd rfl h
    iexact H0
  · iexists f1; isplitr; · ipureintro; intro h; exact absurd rfl h
    iexact H1

theorem Φ1_out (c : Dev nD) : (rdat1 V a c).Φ (Fin.last _) ⊢ (Pipeline.ΦA spec1 c : sProp 𝕄) := by
  show Φ1 V c _ ⊢ (Pipeline.ΦA spec1 c : sProp 𝕄)
  unfold Pipeline.ΦA Φ1
  rw [scopedRest1_split]
  simp only [owns_whole]
  iintro ⟨Hrest, Hr, ⟨%d0, -, H0⟩, ⟨%d1, -, H1⟩⟩
  iframe Hrest Hr
  isplitl [H0] <;> iexists _ <;> iassumption

-- the body on whole memrefs: the reset branch runs where the tile index is 0, the closing stores where it is 12
set_option maxHeartbeats 1000000 in
theorem sound_kernel1 (c : Dev nD) (E : Set ℕ) (i : grid1.Coords)
    (arg2 : Memref sig .tc .vmem S1x1024 .f32) (harg2 : arg2.IsWhole) (arg3 : Memref sig .tc .vmem S1x2048 .f32) (harg3 : arg3.IsWhole)
    (arg4 : Memref sig .tc .vmem S2048x1024 .f32) (harg4 : arg4.IsWhole) (arg5 : Memref sig .tc .vmem S1x26624 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S1x1 .f32) (harg8 : arg8.IsWhole) (arg9 : Memref sig .tc .vmem S1x1 .f32) (harg9 : arg9.IsWhole)
    (h01 : cond1_0 i → ¬cond1_1 i)
    (x0 x1 x2 y3 y4 y5 m0 l0 m l) (hm : m = if cond1_0 i then k1_pay5 else m0) (hl : l = if cond1_0 i then k1_pay6 else l0) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4 ∗ owns (c : Thread nD τ) arg7 fullShare y5
        ∗ owns (c : Thread nD τ) arg8 fullShare m0 ∗ owns (c : Thread nD τ) arg9 fullShare l0
        ∗ (iprop(owns (c : Thread nD τ) arg2 fullShare x0 ∗ owns (c : Thread nD τ) arg3 fullShare x1 ∗ owns (c : Thread nD τ) arg4 fullShare x2
            ∗ owns (c : Thread nD τ) arg5 fullShare ((r3 i).overlay y3 (k1_pay7 i x0 x2 x1))
            ∗ owns (c : Thread nD τ) arg6 fullShare (if cond1_1 i then k1_pay3 (k1_pay2 (k1_pay8 i x0 x2 x1 m)) else y4)
            ∗ owns (c : Thread nD τ) arg7 fullShare (if cond1_1 i then k1_pay4 (k1_pay1 (k1_pay9 i x0 x2 x1 m l)) else y5)
            ∗ owns (c : Thread nD τ) arg8 fullShare (k1_pay2 (k1_pay8 i x0 x2 x1 m))
            ∗ owns (c : Thread nD τ) arg9 fullShare (k1_pay1 (k1_pay9 i x0 x2 x1 m l))) -∗ K ⟨⟩))
      ⊢ wp frame (wpE (defs₀ (F := F)) Variants.none c none) E (cc1_kernel i arg2 harg2 arg3 harg3 arg4 harg4 arg5 harg5 arg6 harg6 arg7 harg7 arg8 harg8 arg9 harg9) K := by
  subst hm hl
  by_cases hc0 : cond1_0 i <;> by_cases hc1 : cond1_1 i
  · exact absurd hc1 (h01 hc0)
  all_goals
    simp only [hc0, hc1, eq_true hc0, eq_true hc1, if_true, if_false]
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    subst hf0 hf1 hf2 hf3 hf4 hf5 hf8 hf9
    sl_exec (disch := first | exact hc0 | exact hc1)
    sl_step
    iapply Hk
    isplitl [H0]; · iexists _; isplitr; swap; · iexact H0
                    ipureintro; rfl
    isplitl [H1]; · iexists _; isplitr; swap; · iexact H1
                    ipureintro; rfl
    isplitl [H2]; · iexists _; isplitr; swap; · iexact H2
                    ipureintro; rfl
    isplitl [H3]; iexists _; isplitr; swap; iexact H3; ipureintro; refine (read_writes_single_overlay _ _ _ _).trans ?_; rotate_left
    isplitl [H4]; iexists _; isplitr; swap; iexact H4; ipureintro; (first | refine (read_writes_last_whole (S := S1x1x128) _ _ hz3 _ _ _).trans ?_ | skip); rotate_left
    isplitl [H5]; iexists _; isplitr; swap; iexact H5; ipureintro; (first | refine (read_writes_last_whole (S := S1x1x128) _ _ hz3 _ _ _).trans ?_ | skip); rotate_left
    isplitl [H8]; iexists _; isplitr; swap; iexact H8; ipureintro; refine (read_writes_last_whole (S := S1x1) _ _ hz2 _ _ _).trans ?_; rotate_left
    iexists _; isplitr; swap; iexact H9; ipureintro; refine (read_writes_last_whole (S := S1x1) _ _ hz2 _ _ _).trans ?_
    all_goals
      first
      | sl_unfold_run_names; simp only [View.readAt_eq_ld, View.ld_unit_zero (S := S1x1024) hz2, View.ld_unit_zero (S := S2048x1024) hz2, View.ld_unit_zero (S := S1x2048) hz2, View.ld_unit_zero (S := S1x1) hz2, View.readCov_unit_zero (S := S1x1) _ hz2]
      | rfl

-- what a scratch cell holds when the main part reads it: the reset value at a core's first point, else what the invariant names
theorem cell_eq {α : Type} (t : Fin cfg1.N) (z d s : α) (h : t.val ≠ 0 → d = s) :
    (if cond1_0 (grid1.coords t) then z else d) = if t.val % 13 = 0 then z else s := by
  exact if_ctx_congr (hcond1 t).1 (fun _ => rfl) fun e => h fun k => e (by rw [k])

set_option maxHeartbeats 1000000 in
theorem body_obligation1 (c : Dev nD) :
    (rdat1 V a c).BodyObligation (defs₀ (F := F)) Variants.none () Set.univ := fun t Y hY => by
  obtain ⟨_, h0⟩ := (rdat1 V a c).finds_in_eq_fetched 0 rfl (fun _ _ _ => rfl) (fun _ _ _ h => h) t _ (hY 0)
  obtain ⟨_, h1⟩ := (rdat1 V a c).finds_in_eq_fetched 1 rfl (fun _ _ _ => rfl) (fun _ _ _ h => h) t _ (hY 1)
  obtain ⟨_, h2⟩ := (rdat1 V a c).finds_in_eq_fetched 2 rfl (fun _ _ _ => rfl) (fun _ _ _ h => h) t _ (hY 2)
  rw [bigSep_W1, bigSep_W1]
  show iprop(Φ1 V c t.val ∗ _) ⊢ wp frame _ Set.univ (bodyAt1 t) (fun _ => iprop(Φ1 V c (t.val + 1) ∗ _))
  unfold Φ1
  iintro ⟨⟨Hrest, Hr, ⟨%d8, %hd8, H8⟩, %d9, %hd9, H9⟩, Ho, H0, H1, H2, H3, H4, H5⟩
  have hM : scM V c (t.val + 1) = k1_pay2 (k1_pay8 (grid1.coords t) (Y 0) (Y 2) (Y 1) (if cond1_0 (grid1.coords t) then k1_pay5 else d8)) := by
    rw [scM_succ, pt1_val, cell_eq t _ _ _ hd8, h0, h1, h2]; rfl
  have hL : scL V c (t.val + 1) = k1_pay1 (k1_pay9 (grid1.coords t) (Y 0) (Y 2) (Y 1) (if cond1_0 (grid1.coords t) then k1_pay5 else d8) (if cond1_0 (grid1.coords t) then k1_pay6 else d9)) := by
    rw [scL_succ, pt1_val, cell_eq t _ _ _ hd8, cell_eq t _ _ _ hd9, h0, h1, h2]; rfl
  have hT : tileAt V c t = k1_pay7 (grid1.coords t) (Y 0) (Y 2) (Y 1) := by rw [h0, h1, h2]; rfl
  iapply (sound_kernel1 c Set.univ (grid1.coords t) _ _ _ _ _ _ _ _ _ _ _ _ _ _ _ _ (fun e0 e1 => by have := (hcond1 t).1.mp e0; have := (hcond1 t).2.mp e1; omega) (Y 0) (Y 1) (Y 2) (Y 3) (Y 4) (Y 5) d8 d9 _ _ rfl rfl _)
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  isplitl [Hrest Hr H8 H9]
  · iframe Hrest Hr
    isplitl [H8]
    · iexists _; isplitr; · ipureintro; intro _; exact hM.symm
      iexact H8
    · iexists _; isplitr; · ipureintro; intro _; exact hL.symm
      iexact H9
  isplitl [Ho]; · iexact Ho
  isplitl [H0]; · iexists _; isplitr; swap; · iexact H0
                  ipureintro; exact rfl
  isplitl [H1]; · iexists _; isplitr; swap; · iexact H1
                  ipureintro; exact rfl
  isplitl [H2]; · iexists _; isplitr; swap; · iexact H2
                  ipureintro; exact rfl
  isplitl [H3]; · iexists _; isplitr; swap; · iexact H3
                  ipureintro; show _ = _; rw [hT]
  isplitl [H4]; · iexists _; isplitr; swap; · iexact H4
                  ipureintro; show _ = _; rw [hM]; exact if_congr (hcond1 t).2 rfl rfl
  · iexists _; isplitr; swap; · iexact H5
    ipureintro; show _ = _; rw [hL]; exact if_congr (hcond1 t).2 rfl rfl

end Cert.KernelIdeal.Hand

end
-- ==== Proof.K1Arr.lean ====
import proofs.«424948_j65738769433295_3_alg».proof.Proof.K1Body
import Idealize.ShloMosaic.Lib.ValueIdx

namespace Cert.KernelIdeal.Hand

open Cert.KernelIdeal Cert.KernelIdeal.Gen
open Idealize.ShloMosaic Idealize.ShloMosaic.TcCoe
open Idealize.ShloMosaic.ValueIdx (ix2)

variable {F : FTy → Type} [FloatOps F] [Named F]

variable (V : (c : Dev nD) → (b : Ref sig .tc) → Buf (Elt F) ((c : Thread nD τ).loc b))
variable (a : (p : Fin 2) → (pcfgs (F := F) p).Adm)

-- An element that point `u` writes and no later point writes ends at what `u` left there.
theorem arrAt_last {Λ : Idealize.SL.Sem.Labels} {cfg : Pipeline.Cfg sig Λ} {c : Dev nD} (rd : Pipeline.RDat τ (Elt F) Unit ℕ (UR sig nD τ) ℕ cfg c)
    (w : Fin cfg.W) (u : Fin cfg.N) (hu : (cfg.win w).flush u = true) (j : (cfg.win w).shape.Idx)
    (x : ((cfg.win w).xblock (cfg.grid.coords u)).Idx) (hx : ((cfg.win w).rect u).emb x = j)
    (hl : ∀ t : Fin cfg.N, u.val < t.val → (cfg.win w).flush t = true → j ∉ ((cfg.win w).rect t).set) :
    ∀ n, u.val < n → ∀ hn : n ≤ cfg.N, ∀ A, rd.ArrAt w n A →
      ∃ X, rd.Leaves w u X ∧ (cfg.win w).arr.view.read (Elt F) A j = X ((cfg.win w).xinj _ x) := by
  subst hx
  intro n
  induction n with
  | zero => intro h; omega
  | succ n ih =>
    intro hun hn A hA
    have hA' := (congrFun (rd.ArrAt_succ w ⟨n, hn⟩) A).mp hA
    by_cases e : u.val = n
    · obtain rfl : u = ⟨n, hn⟩ := Fin.ext e
      rw [if_pos hu] at hA'
      obtain ⟨G, X, -, hX, rfl⟩ := hA'
      exact ⟨X, hX, View.read_slice_write_emb (v := (cfg.win w).arr.view) _ G _ (Finset.mem_univ x)⟩
    · have ih' := ih (by omega) (by omega)
      by_cases hf : (cfg.win w).flush ⟨n, hn⟩ = true
      · rw [if_pos hf] at hA'
        obtain ⟨G, X, hG, -, rfl⟩ := hA'
        obtain ⟨X', hX', h'⟩ := ih' G hG
        exact ⟨X', hX', (View.read_slice_write_of_not_mem (v := (cfg.win w).arr.view) _ G _ _
          (by rw [Rect.map_emb_univ]; exact hl ⟨n, hn⟩ (by show u.val < n; omega) hf)).trans h'⟩
      · rw [if_neg hf] at hA'
        exact ih' A hA'

-- Core `r`'s last point.
theorem lastPt {r : ℕ} (hr : r < 2) : ∃ u : Fin grid1.N, u.val = 13 * r + 12 := ⟨⟨_, by rw [N_1]; omega⟩, rfl⟩

theorem index1_3 : ∀ t : Fin grid1.N, win1_3.index t (0 : Fin 2) = 0 ∧ win1_3.index t (1 : Fin 2) = t.val / 13 := by decide +kernel

theorem off1_3 : ∀ t : Fin grid1.N, k1_off1 (grid1.coords t) (0 : Fin 2) = 0
    ∧ k1_off1 (grid1.coords t) (1 : Fin 2) = t.val % 13 * 2048 := by decide +kernel

-- By induction on the point: a point leaves the tiles of its core's points up to it.
theorem leaves1_3 (c : Dev nD) (n : ℕ) : ∀ (hn : n < grid1.N) (X), (rdat1 V a c).Leaves (3 : Fin 6) ⟨n, hn⟩ X →
    ∀ (k : Fin 26624) (q : ℕ), k.val < (n % 13 + 1) * 2048 → q = n / 13 * 26624 + k.val →
      X (ix2 (0 : Fin 1) k) = tileAt V c (pt1 (q / 2048)) (tileIdx q) := by
  induction n using Nat.strongRecOn with | _ n ih => ?_
  rintro hn X ⟨Y, hY, (rfl : X = (r3 _).overlay Y _)⟩ k q hk hq
  obtain ⟨o0, o1⟩ : k1_off1 _ (0 : Fin 2) = 0 ∧ k1_off1 _ (1 : Fin 2) = n % 13 * 2048 := off1_3 ⟨n, hn⟩
  by_cases hin : n % 13 * 2048 ≤ k.val
  · have e : (r3 (grid1.coords ⟨n, hn⟩)).emb (tileIdx q) = (ix2 (0 : Fin 1) k : S1x26624.Idx) := by
      funext d; apply Fin.ext
      match d with
      | ⟨0, _⟩ => show k1_off1 (grid1.coords ⟨n, hn⟩) (0 : Fin 2) + 1 * 0 = 0; omega
      | ⟨1, _⟩ => show k1_off1 (grid1.coords ⟨n, hn⟩) (1 : Fin 2) + 1 * (q % 2048) = k.val; omega
    rw [← e, Rect.overlay_emb]
    exact congrArg (fun p => tileAt V c p _) (Fin.ext (by show n = q / 2048 % 26; have := N_1 ▸ hn; omega))
  · rw [Rect.overlay_of_not_mem _ _ _ fun h => by
      have h1 : k1_off1 _ (1 : Fin 2) ≤ k.val := (Rect.mem_set_unit.mp h (1 : Fin 2)).1
      omega]
    obtain _ | m := n
    · omega
    · rw [(rdat1 V a c).finds_of_pos (Pipeline.Window.fetch_out _ rfl _) (Nat.succ_ne_zero m)] at hY
      obtain hf | hL := hY
      · have : m % 13 = 12 := (flush1_3 _).mp hf
        omega
      · rw [show (m + 1) / 13 = m / 13 by omega] at hq
        exact ih m (Nat.lt_succ_self m) _ Y hL k q (by omega) hq

theorem rect1_3_emb (u : Fin grid1.N) (j : S1x53248.Idx) (k : Fin 26624) (hj : (j 1).val = u.val / 13 * 26624 + k.val) :
    (win1_3.rect u).emb (ix2 (0 : Fin 1) k) = j := by
  funext d; apply Fin.ext
  obtain ⟨e0, e1⟩ := index1_3 u
  match d with
  | ⟨0, _⟩ => show win1_3.index u (0 : Fin 2) * 1 + 1 * 0 = (j 0).val; have : (j 0).val < 1 := (j 0).isLt; omega
  | ⟨1, _⟩ => show win1_3.index u (1 : Fin 2) * 26624 + 1 * k.val = (j 1).val; omega

theorem arr3_final (c : Dev nD) (A) :
    (rdat1 V a c).ArrAt 3 (Pipeline.pin (pcfgs (F := F)) a 1).N A → A = logitsOut V c := fun hA => funext fun (j : S1x53248.Idx) => by
  have h1 : (j 1).val < 53248 := (j 1).isLt
  obtain ⟨u, hu⟩ := lastPt (r := (j 1).val / 26624) (by omega)
  obtain ⟨k, hk⟩ : ∃ k : Fin 26624, k.val = (j 1).val % 26624 := ⟨⟨_, Nat.mod_lt _ (by decide)⟩, rfl⟩
  obtain ⟨X, hX, hr⟩ := arrAt_last (rdat1 V a c) 3 u ((flush1_3 u).mpr (by omega)) j (ix2 (0 : Fin 1) k) (rect1_3_emb u j k (by omega))
    (fun t ht hf h => by
      have h1 : win1_3.index t (1 : Fin 2) * 26624 ≤ (j 1).val := (Rect.mem_set_unit.mp h (1 : Fin 2)).1
      have := (flush1_3 t).mp hf; have := (index1_3 t).2
      omega) _ u.isLt le_rfl A hA
  exact hr.trans (leaves1_3 V a c _ u.isLt X hX k (j 1).val (by omega) (by omega))

theorem index1_4 : ∀ t : Fin grid1.N, win1_4.index t (0 : Fin 3) = t.val / 13 ∧ win1_4.index t (1 : Fin 3) = 0
    ∧ win1_4.index t (2 : Fin 3) = 0 := by decide +kernel

theorem rect1_4_emb (u : Fin grid1.N) (j : S2x1x128.Idx) (hj : (j 0).val = u.val / 13) : (win1_4.rect u).emb (laneIdx (j 2)) = j := by
  funext d; apply Fin.ext
  obtain ⟨e0, e1, e2⟩ := index1_4 u
  match d with
  | ⟨0, _⟩ => show win1_4.index u (0 : Fin 3) * 1 + 1 * 0 = (j 0).val; omega
  | ⟨1, _⟩ => show win1_4.index u (1 : Fin 3) * 1 + 1 * 0 = (j 1).val; have : (j 1).val < 1 := (j 1).isLt; omega
  | ⟨2, _⟩ => show win1_4.index u (2 : Fin 3) * 128 + 1 * (j 2).val = (j 2).val; omega

theorem rect1_4_not_mem (t : Fin grid1.N) (j : S2x1x128.Idx) (hj : (j 0).val < t.val / 13) : j ∉ (win1_4.rect t).set := fun h => by
  have h0 : win1_4.index t (0 : Fin 3) * 1 ≤ (j 0).val := (Rect.mem_set_unit.mp h (0 : Fin 3)).1
  have := (index1_4 t).1; omega

theorem arr4_final (c : Dev nD) (A) :
    (rdat1 V a c).ArrAt 4 (Pipeline.pin (pcfgs (F := F)) a 1).N A → A = mOut V c := fun hA => funext fun (j : S2x1x128.Idx) => by
  obtain ⟨u, hu⟩ := lastPt (j 0).isLt
  obtain ⟨X, ⟨Y, -, hX⟩, hr⟩ := arrAt_last (rdat1 V a c) 4 u ((flush1_4 u).mpr (by omega)) j (laneIdx (j 2)) (rect1_4_emb u j (by omega))
    (fun t ht hf => rect1_4_not_mem t j (by have := (flush1_4 t).mp hf; omega)) _ u.isLt le_rfl A hA
  have e := hX.trans (if_pos (by omega))
  rw [hu] at e
  exact hr.trans (congrFun e _)

-- Window 5's index map is window 4's, so the rectangle facts above serve both.
theorem arr5_final (c : Dev nD) (A) :
    (rdat1 V a c).ArrAt 5 (Pipeline.pin (pcfgs (F := F)) a 1).N A → A = lOut V c := fun hA => funext fun (j : S2x1x128.Idx) => by
  obtain ⟨u, hu⟩ := lastPt (j 0).isLt
  obtain ⟨X, ⟨Y, -, hX⟩, hr⟩ := arrAt_last (rdat1 V a c) 5 u ((flush1_5 u).mpr (by omega)) j (laneIdx (j 2)) (rect1_4_emb u j (by omega))
    (fun t ht hf => rect1_4_not_mem t j (by have := (flush1_5 t).mp hf; omega)) _ u.isLt le_rfl A hA
  have e := hX.trans (if_pos (by omega))
  rw [hu] at e
  exact hr.trans (congrFun e _)

end Cert.KernelIdeal.Hand
-- ==== Proof.RunSegs.lean ====
import proofs.«424948_j65738769433295_3_alg».proof.Proof.RunVals
import proofs.«424948_j65738769433295_3_alg».proof.Proof.K1Body
import proofs.«424948_j65738769433295_3_alg».proof.Proof.K1Arr
import Idealize.ShloMosaic.Lib.Pipeline.Regions
import Idealize.ShloMosaic.Lib.Pipeline.RegionsLoop
import Idealize.ShloMosaic.Lib.Pipeline.Kit

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

local notation "𝕡" => Pipeline.pin (pcfgs (F := F))

open Idealize.ShloMosaic.Pipeline (RDat)

variable (m : (ℓ : Loc nD τ sig) → Buf (Elt F) ℓ)

variable (a : (p : Fin 2) → (pcfgs (F := F) p).Adm)

def rdats : (p : Fin 2) → (c : Dev nD) → RDat τ (Elt F) Unit ℕ (UR sig nD τ) ℕ (𝕡 a p) c
  | ⟨0, _⟩ => fun c => (dat0 (E0 m) a c).toR
  | ⟨1, _⟩ => fun c => rdat1 (E1 m a) a c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem unscopedBufs_of_arraysAt (p : Fin 2) (hw : Pipeline.WinFacts (𝕡 a p).spec) (harr : ∀ w, ((𝕡 a p).spec w).arr.IsWhole)
    (c : Dev nD) (hshare : ∀ w, (rdats m a p c).share w = fullShare)
    (V V' : (b : Ref sig .tc) → Buf (Elt F) ((c : Thread nD τ).loc b))
    (hfinal : ∀ w A, (rdats m a p c).ArrAt w (𝕡 a p).N A → A = V' (Pipeline.arrRef (𝕡 a p).spec w))
    (hrest : ∀ b, (∀ w, Pipeline.arrRef (𝕡 a p).spec w ≠ b) → V' b = V b) :
    iprop((rdats m a p c).arraysAt (𝕡 a p).N ∗ Pipeline.unscopedRest (𝕡 a p).spec c V) ⊢ (unscopedBufs c V' : sProp 𝕄) := by
  have h1 : (rdats m a p c).arraysAt (𝕡 a p).N ⊢ ((rdats m a p c).arrays fun w => V' (Pipeline.arrRef (𝕡 a p).spec w) : sProp 𝕄) :=
    BI.bigSep_mono fun w _ => show (_ : sProp 𝕄) ⊢ _ from by iintro ⟨%A, %hA, H⟩; rw [hfinal w A hA]; iexact H
  rw [Pipeline.RDat.arrays_eq (pcfgs (F := F)) a (rdats m a) p c harr hshare] at h1
  rw [Pipeline.unscopedBufs_split (𝕡 a) p hw.arr_unscoped hw.arr_inj c V']
  refine sep_mono h1 (Entails.of_eq ?_)
  unfold Pipeline.unscopedRest
  exact bigSep_congr fun b hb => by
    rw [hrest b fun w e => (Finset.mem_sdiff.mp hb).2 (Finset.mem_image.mpr ⟨w, Finset.mem_univ _, e⟩)]

theorem fin1_final (c : Dev nD) (w : Fin 6) (A : Buf (Elt F) ((spec1 w).arr.view.loc (c : Thread nD τ)))
    (h : (rdat1 (E1 m a) a c).ArrAt w (𝕡 a 1).N A) : A = fin1 m a c w := by
  have hw : ∀ w : Fin 6, w = 0 ∨ w = 1 ∨ w = 2 ∨ w = 3 ∨ w = 4 ∨ w = 5 := by decide
  rcases hw w with rfl | rfl | rfl | rfl | rfl | rfl
  · rw [(rdat1 (E1 m a) a c).ArrAt_in 0 (by rfl)] at h; exact h.trans (A_eq1 (E1 m a) a c 0)
  · rw [(rdat1 (E1 m a) a c).ArrAt_in 1 (by rfl)] at h; exact h.trans (A_eq1 (E1 m a) a c 1)
  · rw [(rdat1 (E1 m a) a c).ArrAt_in 2 (by rfl)] at h; exact h.trans (A_eq1 (E1 m a) a c 2)
  exacts [arr3_final (E1 m a) a c A h, arr4_final (E1 m a) a c A h, arr5_final (E1 m a) a c A h]

variable (hpf : ∀ (c : Dev nD) (k : Fin pre0.K), V3 m c (Proc.devRef .tc (pre0.ref k)) = (a 0).1 k)

include hpf in
theorem rest0_split (c : Dev nD) :
    (Pipeline.unscopedRest (Ix := Unit) (Name := ℕ) (U := UR sig nD τ) (Lvl := ℕ) (𝕡 a 0).spec c (E0 m c) : sProp 𝕄)
      = iprop(Pipeline.prefHeld pre0 c (fun _ => fullShare) (a 0).1 ∗ Pipeline.unscopedRestP pre0 spec0 c (E0 m c)) := by
  have e := Pipeline.unscopedRest_split (Ix := Unit) (Name := ℕ) (U := UR sig nD τ) (Lvl := ℕ) (Val := Elt F) preFacts0 c (E0 m c)
  rw [show (fun k => E0 m c (pre0.ref k)) = (a 0).1 from funext (hpf c)] at e
  exact e

set_option backward.isDefEq.respectTransparency.types false in

def reg0 : Pipeline.RDat.RegionSeg (pcfgs (F := F)) a (rdats m a) () defs₀ 𝒱₀ L lv 0 where
  win := winFacts0.to₀
  block_pos := block_pos0
  stage_whole := stage_whole0
  K := PEmpty
  osem k := k.elim
  ho := Pipeline.OwnSemFacts.none _
  hbody c := (body_obligation0 (E0 m) a c).loose.toR
  hwaits := Pipeline.RDat.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m a c) ∗ R c)
  X c := iprop(∃ r, prngReg c r)
  Y c := iprop((∃ r, prngReg c r) ∗ Pipeline.prefHeld pre0 c (fun _ => fullShare) (a 0).1)
  Z c := Pipeline.unscopedRestP (Ix := Unit) (Name := ℕ) (U := UR sig nD τ) (Lvl := ℕ) pre0 spec0 c (E0 m c)
  hentry c := by
    rw [Pipeline.ownSems0_none]
    have hsplit := Pipeline.RDat.arrays_of_unscopedBufs (p := 0) (pcfgs (F := F)) a (rdats m a) winFacts0 arr_whole0 c
      ((rdats m a 0 c).share_full fun _ => rfl) (E0 m c) fun _ => rfl
    rw [Pipeline.unscopedBufs_held, rest0_split m a hpf c] at hsplit
    iintro ⟨⟨Hub, Hp, HO⟩, -, -⟩
    ihave H := hsplit $$ Hub
    icases H with ⟨Ha, Hpf, Hrest⟩
    imodintro
    iframe Ha Hpf Hp Hrest
    unfold Pipeline.RDat.owesAt Pipeline.owesWithin
    icases HO with ⟨%W, HO⟩; iexists W; isplitr; · ipureintro; exact fun _ _ => Or.inl trivial
    iexact HO
  hin c := by
    rw [show (rdats m a 0 c).Φ 0 = iprop(Pipeline.ΦA spec0 c ∗ Pipeline.prefHeld pre0 c (fun _ => fullShare) (a 0).1) from rfl]; unfold Pipeline.ΦA
    iintro ⟨Hp, Hpf, Hr⟩
    iframe
  hout c := by
    rw [Pipeline.ownSems0_none, show (rdats m a 0 c).Φ (Fin.last _) = iprop(Pipeline.ΦA spec0 c ∗ Pipeline.prefHeld pre0 c (fun _ => fullShare) (a 0).1) from rfl]; unfold Pipeline.ΦA
    iintro ⟨⟨Hr, Hp⟩, Hpf⟩
    iframe; iempintro
  hexit c := by
    have hjoin := unscopedBufs_of_arraysAt m a 0 winFacts0 arr_whole0 c ((rdats m a 0 c).share_full fun _ => rfl)
      (E0 m c) (X0 m a c) (fun w A h => ((dat0 (E0 m) a c).toR_arrAt w _ A h).trans (W4_arr m a c w).symm) (W4_of_ne m a c)
    rw [Pipeline.unscopedBufs_held, rest0_split m a hpf c] at hjoin
    iintro ⟨Ha, HO, ⟨HY, Hpf⟩, Hrest⟩
    imodintro
    isplitl [Ha Hrest Hpf]
    · iapply hjoin; iframe
    isplitl [HY]; · iexact HY
    unfold Pipeline.RDat.owesAt Pipeline.owesWithin
    icases HO with ⟨%W, -, HO⟩; iexists W; iexact HO

abbrev Tₙ (c : Dev nD) : sProp 𝕄 := iprop(StableHlo.held (c : Thread nD τ) (Pipeline.ucRefs τ sig) (Wfin m a c) ∗ ∃ r, prngReg c r)

set_option backward.isDefEq.respectTransparency.types false in

def reg1 : Pipeline.RDat.RegionSeg (pcfgs (F := F)) a (rdats m a) () defs₀ 𝒱₀ L lv 1 where
  win := winFacts1.to₀
  block_pos := block_pos1
  stage_whole := stage_whole1
  K := PEmpty
  osem k := k.elim
  ho := Pipeline.OwnSemFacts.none _
  hbody c := body_obligation1 (E1 m a) a c
  hwaits := Pipeline.RDat.hwaits_of_owed_zero _ _ _ _ L lv 1 fun _ _ => rfl
  pre c := iprop(StableHlo.held (c : Thread nD τ) (Pipeline.ucRefs τ sig) (W9 m a c) ∗ R c)
  post c := iprop(StableHlo.held (c : Thread nD τ) (Pipeline.ucRefs τ sig) (W10 m a c) ∗ R c)
  X c := iprop(∃ r, prngReg c r)
  Y c := iprop(∃ r, prngReg c r)
  Z c := Pipeline.unscopedRest (Ix := Unit) (Name := ℕ) (U := UR sig nD τ) (Lvl := ℕ) spec1 c (E1 m a c)
  hentry c := by
    rw [Pipeline.ownSems0_none]
    have hsplit := Pipeline.RDat.arrays_of_unscopedBufs (p := 1) (pcfgs (F := F)) a (rdats m a) winFacts1 arr_whole1 c
      ((rdats m a 1 c).share_full fun _ => rfl) (E1 m a c) fun w => A_eq1 (E1 m a) a c w
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.RDat.owesAt Pipeline.owesWithin
    icases HO with ⟨%W, HO⟩; iexists W; isplitr; · ipureintro; exact fun _ _ => Or.inl trivial
    iexact HO
  hin c := by
    refine BIBase.Entails.trans ?_ (Φ1_in (E1 m a) a c)
    unfold Pipeline.ΦA
    iintro ⟨Hp, -, Hr⟩
    iframe
  hout c := by
    rw [Pipeline.ownSems0_none]
    refine BIBase.Entails.trans (Φ1_out (E1 m a) a c) ?_
    unfold Pipeline.ΦA
    iintro ⟨Hr, Hp⟩
    iframe; iempintro
  hexit c := by
    have hjoin := unscopedBufs_of_arraysAt m a 1 winFacts1 arr_whole1 c ((rdats m a 1 c).share_full fun _ => rfl)
      (E1 m a c) (X1 m a c) (fun w A h => (fin1_final m a c w A h).trans (W10_arr m a c w).symm) (W10_of_ne m a c)
    rw [Pipeline.unscopedBufs_held] at hjoin
    iintro ⟨Ha, HO, HY, Hrest⟩
    imodintro
    isplitl [Ha Hrest]
    · iapply hjoin; iframe
    isplitl [HY]; · iexact HY
    unfold Pipeline.RDat.owesAt Pipeline.owesWithin
    icases HO with ⟨%W, -, HO⟩; iexists W; iexact HO

end Cert.KernelIdeal.Hand

end
-- ==== Proof.Run.lean ====
import proofs.«424948_j65738769433295_3_alg».proof.Proof.RunSegs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

local notation "𝕡" => Pipeline.pin (pcfgs (F := F))

variable (m : (ℓ : Loc nD τ sig) → Buf (Elt F) ℓ) (ρ : Dev nD → PrngReg)

variable (a : (p : Fin 2) → (pcfgs (F := F) p).Adm)

variable (hpf : ∀ (c : Dev nD) (k : Fin pre0.K), V3 m c (Proc.devRef .tc (pre0.ref k)) = (a 0).1 k)

abbrev segs : List (Pipeline.RDat.Seg (pcfgs (F := F)) a (rdats m a) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m a hpf),
    .host (hseg hostOps1 hostOps1_sub hostOps1_fresh (W4 m a)),
    .host (hseg hostOps1_1 hostOps1_1_sub hostOps1_1_fresh (W5 m a)),
    .host (hseg hostOps1_2 hostOps1_2_sub hostOps1_2_fresh (W6 m a)),
    .host (hseg hostOps1_3 hostOps1_3_sub hostOps1_3_fresh (W7 m a)),
    .host (hseg hostOps1_4 hostOps1_4_sub hostOps1_4_fresh (W8 m a)),
    .region (reg1 m a),
    .host (hseg hostOps2 hostOps2_sub hostOps2_fresh (W10 m a)) ]

theorem main_run (c : Dev nD) : main (F := F) c = Pipeline.RDat.Seg.run (segs m a hpf) := by
  rw [main_chain c, Pipeline.RDat.Seg.run_eq_chain]; rfl

set_option backward.isDefEq.respectTransparency.types false in

theorem run (hpf : ∀ (c : Dev nD) (k : Fin pre0.K), V3 m c (Proc.devRef .tc (pre0.ref k)) = (a 0).1 k) :
    θ_run defs (onTc (τ := τ) (main (F := F))) ⟨m, fun _ => 0, ρ⟩ (fun r => ∀ c : Dev nD,
      ∀ b ∈ Pipeline.ucRefs τ sig, r.2.mem ((c : Thread nD τ).1, b) = Wfin m a c b) :=
  Pipeline.RDat.θ_run_regions_kit (pcfgs (F := F)) a (rdats m a) () (cellOf_inj a) emb₁ defs₀ 𝒱₀ L lv m ρ main (segs m a hpf)
    (fun c Q => by rw [main_run m a hpf c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells (𝕡 a) (cellOf_inj a)) (Pipeline.launchToks (𝕡 a) (cellOf_inj a)))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m a)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c =>
        show iprop(_ ∗ R c) ⊢ (iprop(Tₙ m a c ∗ _) : sProp 𝕄) from by
          iintro ⟨Hh, Hp, HO⟩; iframe
          isplitl [Hh]; · iexact Hh
          iexact Hp⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m a c b)
    (hfin := fun c s' => by
      iintro ⟨⟨Hh, -⟩, HSI⟩
      unfold StableHlo.held
      imodintro
      iapply (pointsTo_read_all (Pipeline.ucRefs τ sig) (fun b => (((c : Thread nD τ)).1, b)) (Wfin m a c) s')
      isplitl [Hh] <;> iassumption)
    (hQ := fun s h => h)

end Cert.KernelIdeal.Hand

end
-- ==== Proof.Spec.lean ====
import Idealize.ShloMosaic.PureOps.Ideal
import Mathlib.Algebra.BigOperators.Group.Finset.Basic

noncomputable section

namespace Cert.Spec

open Idealize.ShloMosaic

def gate (e h : Fin 1024 → EReal) (wih whh : Fin 4096 → Fin 1024 → EReal) (bih bhh : Fin 4096 → EReal) (j : Fin 4096) : EReal :=
  (∑ k : Fin 1024, e k * wih j k) + bih j + (∑ k : Fin 1024, h k * whh j k) + bhh j

def gi (q : Fin 1024) : Fin 4096 := ⟨q.val, by omega⟩
def gf (q : Fin 1024) : Fin 4096 := ⟨1024 + q.val, by omega⟩
def gg (q : Fin 1024) : Fin 4096 := ⟨2048 + q.val, by omega⟩
def go (q : Fin 1024) : Fin 4096 := ⟨3072 + q.val, by omega⟩

def cNew (e h c : Fin 1024 → EReal) (wih whh : Fin 4096 → Fin 1024 → EReal) (bih bhh : Fin 4096 → EReal) (q : Fin 1024) : EReal :=
  Ideal.logistic (gate e h wih whh bih bhh (gf q)) * c q
    + Ideal.logistic (gate e h wih whh bih bhh (gi q)) * Ideal.tanh (gate e h wih whh bih bhh (gg q))

def hNew (e h c : Fin 1024 → EReal) (wih whh : Fin 4096 → Fin 1024 → EReal) (bih bhh : Fin 4096 → EReal) (q : Fin 1024) : EReal :=
  Ideal.logistic (gate e h wih whh bih bhh (go q)) * Ideal.tanh (cNew e h c wih whh bih bhh q)

def logit (hn : Fin 1024 → EReal) (fcw : Fin 50257 → Fin 1024 → EReal) (fcb : Fin 50257 → EReal) (j : Fin 50257) : EReal :=
  (∑ k : Fin 1024, hn k * fcw j k) + fcb j

def zmax (z : Fin 50257 → EReal) : EReal := Finset.univ.sup z

def logSoftmax (z : Fin 50257 → EReal) (j : Fin 50257) : EReal :=
  (z j - zmax z) - Ideal.log (∑ k : Fin 50257, Ideal.exp (z k - zmax z))

def zpad (z : Fin 50257 → EReal) (j : ℕ) : EReal := if h : j < 50257 then z ⟨j, h⟩ else ⊥

def tileOf (z : Fin 50257 → EReal) (g : ℕ) (i : Fin 2048) : EReal := zpad z (g * 2048 + i.val)

def stepM (m : EReal) (t : Fin 2048 → EReal) : EReal := max m (Finset.univ.sup t)

def stepL (m l : EReal) (t : Fin 2048 → EReal) : EReal :=
  l * Ideal.exp (m - stepM m t) + ∑ i : Fin 2048, Ideal.exp (t i - stepM m t)

def accM (z : Fin 50257 → EReal) (c : ℕ) : ℕ → EReal
  | 0 => ⊥
  | n + 1 => stepM (accM z c n) (tileOf z (c * 13 + n))

def accL (z : Fin 50257 → EReal) (c : ℕ) : ℕ → EReal
  | 0 => 0
  | n + 1 => stepL (accM z c n) (accL z c n) (tileOf z (c * 13 + n))

def lse (z : Fin 50257 → EReal) : EReal :=
  max (accM z 0 13) (accM z 1 13)
    + Ideal.log (accL z 0 13 * Ideal.exp (accM z 0 13 - max (accM z 0 13) (accM z 1 13))
        + accL z 1 13 * Ideal.exp (accM z 1 13 - max (accM z 0 13) (accM z 1 13)))

end Cert.Spec

end
-- ==== Proof.Args.lean ====
import proofs.«424948_j65738769433295_3_alg».proof.Proof.Spec
import Idealize.ShloMosaic.Lib.ValueIdx

noncomputable section

namespace Cert.Args

open Idealize.ShloMosaic Idealize.ShloMosaic.ValueIdx

structure Arrs where
  hidden : (⟨3, ![1, 1, 1024]⟩ : Shape).Idx → EReal
  cell : (⟨3, ![1, 1, 1024]⟩ : Shape).Idx → EReal
  emb : (⟨2, ![50257, 1024]⟩ : Shape).Idx → EReal
  wih : (⟨2, ![4096, 1024]⟩ : Shape).Idx → EReal
  whh : (⟨2, ![4096, 1024]⟩ : Shape).Idx → EReal
  bih : (⟨1, ![4096]⟩ : Shape).Idx → EReal
  bhh : (⟨1, ![4096]⟩ : Shape).Idx → EReal
  fcw : (⟨2, ![50257, 1024]⟩ : Shape).Idx → EReal
  fcb : (⟨1, ![50257]⟩ : Shape).Idx → EReal

variable (A : Arrs) (x : Fin 50257)

def e (k : Fin 1024) : EReal := A.emb (ix2 x k)
def h (k : Fin 1024) : EReal := A.hidden (ix3 (0 : Fin 1) (0 : Fin 1) k)
def c (k : Fin 1024) : EReal := A.cell (ix3 (0 : Fin 1) (0 : Fin 1) k)
def wih (j : Fin 4096) (k : Fin 1024) : EReal := A.wih (ix2 j k)
def whh (j : Fin 4096) (k : Fin 1024) : EReal := A.whh (ix2 j k)
def bih (j : Fin 4096) : EReal := A.bih (ix1 j)
def bhh (j : Fin 4096) : EReal := A.bhh (ix1 j)
def fcw (j : Fin 50257) (k : Fin 1024) : EReal := A.fcw (ix2 j k)
def fcb (j : Fin 50257) : EReal := A.fcb (ix1 j)

def hOut (q : Fin 1024) : EReal := Spec.hNew (e A x) (h A) (c A) (wih A) (whh A) (bih A) (bhh A) q
def cOut (q : Fin 1024) : EReal := Spec.cNew (e A x) (h A) (c A) (wih A) (whh A) (bih A) (bhh A) q
def z (j : Fin 50257) : EReal := Spec.logit (hOut A x) (fcw A) (fcb A) j

def res0 (i : (⟨2, ![1, 50257]⟩ : Shape).Idx) : EReal := Spec.logSoftmax (z A x) (i 1)

def res1 (i : (⟨3, ![1, 1, 1024]⟩ : Shape).Idx) : EReal := hOut A x (i 2)

def res2 (i : (⟨3, ![1, 1, 1024]⟩ : Shape).Idx) : EReal := cOut A x (i 2)

def Real (A : Arrs) : Prop :=
  (∀ i, ∃ r : ℝ, A.hidden i = r) ∧ (∀ i, ∃ r : ℝ, A.cell i = r) ∧ (∀ i, ∃ r : ℝ, A.emb i = r) ∧ (∀ i, ∃ r : ℝ, A.wih i = r)
    ∧ (∀ i, ∃ r : ℝ, A.whh i = r) ∧ (∀ i, ∃ r : ℝ, A.bih i = r) ∧ (∀ i, ∃ r : ℝ, A.bhh i = r) ∧ (∀ i, ∃ r : ℝ, A.fcw i = r)
    ∧ (∀ i, ∃ r : ℝ, A.fcb i = r)

end Cert.Args

end
-- ==== Proof.PreFacts.lean ====
import proofs.«424948_j65738769433295_3_alg».proof.Defs
import proofs.«424948_j65738769433295_3_alg».proof.Proof.Gen.Pre_finite_inputs
import proofs.«424948_j65738769433295_3_alg».proof.Proof.Args
import Idealize.ShloMosaic.Lib.ReduceAll
import Idealize.ShloMosaic.Lib.StableHlo.Predicate
import Idealize.ShloMosaic.Lib.ValueIdx

noncomputable section

namespace Cert.PreFacts

open Idealize.ShloMosaic Idealize.SL.Sem Cert.Pre_finite_inputs

instance : Subsingleton S_.Idx := ⟨fun a b => funext fun d => d.elim0⟩

def Fin32 {F : FTy → Type} [FloatOps F] (x : F .f32) : Prop :=
  FloatOps.cmpf .olt (FloatOps.hostAbsf x) (FloatOps.ofBits (F := F) .f32 0x7F800000#32) = 1#1

theorem fn_split {F : FTy → Type} [FloatOps F] (a0 : IVec S1 32) (a1 a2 : FVec F S1x1x1024 .f32) (a3 : FVec F S50257x1024 .f32)
    (a4 a5 : FVec F S4096x1024 .f32) (a6 a7 : FVec F S4096 .f32) (a8 : FVec F S50257x1024 .f32) (a9 : FVec F S50257 .f32)
    (e : fn (F := F) a0 a1 a2 a3 a4 a5 a6 a7 a8 a9 = fun _ => 1#1) :
    (∀ i, Fin32 (a1 i)) ∧ (∀ i, Fin32 (a2 i)) ∧ (∀ i, Fin32 (a3 i)) ∧ (∀ i, Fin32 (a4 i)) ∧ (∀ i, Fin32 (a5 i))
      ∧ (∀ i, Fin32 (a6 i)) ∧ (∀ i, Fin32 (a7 i)) ∧ (∀ i, Fin32 (a8 i)) ∧ (∀ i, Fin32 (a9 i))
      ∧ (∀ i, IntOp.cmpi .sge (a0 i) 0#32 = 1#1) ∧ (∀ i, IntOp.cmpi .slt (a0 i) 50257#32 = 1#1) := by
  have e := congrFun e ValueIdx.ix0
  dsimp only [fn, fn_part1, fn_part2, fn_part3, andi] at e
  simp only [IntOp.andi_eq_one] at e
  obtain ⟨⟨⟨⟨⟨⟨⟨⟨⟨⟨e1, e2⟩, e3⟩, e4⟩, e5⟩, e6⟩, e7⟩, e8⟩, e9⟩, e10⟩, e11⟩ := e
  exact ⟨fun i => Host.reduce_andi_all _ _ _ _ _ e1 i, fun i => Host.reduce_andi_all _ _ _ _ _ e2 i,
    fun i => Host.reduce_andi_all _ _ _ _ _ e3 i, fun i => Host.reduce_andi_all _ _ _ _ _ e4 i,
    fun i => Host.reduce_andi_all _ _ _ _ _ e5 i, fun i => Host.reduce_andi_all _ _ _ _ _ e6 i,
    fun i => Host.reduce_andi_all _ _ _ _ _ e7 i, fun i => Host.reduce_andi_all _ _ _ _ _ e8 i,
    fun i => Host.reduce_andi_all _ _ _ _ _ e9 i, fun i => Host.reduce_andi_all _ _ _ _ _ e10 i,
    fun i => Host.reduce_andi_all _ _ _ _ _ e11 i⟩

theorem word_lt (w : BitVec 32) (h0 : IntOp.cmpi .sge w 0#32 = 1#1) (h1 : IntOp.cmpi .slt w 50257#32 = 1#1) :
    w.toNat < 50257 := by
  unfold IntOp.cmpi at h0 h1
  simp only [StableHlo.Predicate.ofBool_eq_one_iff, BitVec.sle, BitVec.slt, decide_eq_true_eq] at h0 h1
  have e0 : (0#32 : BitVec 32).toInt = 0 := by decide
  have e1 : (50257#32 : BitVec 32).toInt = 50257 := by decide
  rw [e0] at h0
  rw [e1] at h1
  rw [BitVec.toInt_eq_toNat_cond] at h0 h1
  have hw := w.isLt
  split at h0 <;> omega

theorem token_of_split (a0 : IVec S1 32) (h0 : ∀ i, IntOp.cmpi .sge (a0 i) 0#32 = 1#1)
    (h1 : ∀ i, IntOp.cmpi .slt (a0 i) 50257#32 = 1#1) : ∃ x : Fin 50257, a0 = fun _ => BitVec.ofNat 32 x.val := by
  refine ⟨⟨(a0 (ValueIdx.ix1 (0 : Fin 1))).toNat, word_lt _ (h0 _) (h1 _)⟩, funext fun j => ?_⟩
  have hlt : (j 0).val < 1 := (j 0).isLt
  have hj : j = ValueIdx.ix1 (0 : Fin 1) :=
    (ValueIdx.eq_ix1 j).trans (congrArg ValueIdx.ix1 (Fin.ext (by show (j 0).val = 0; omega)))
  subst hj
  exact BitVec.eq_of_toNat_eq (by simp)

theorem token_of_fn {F : FTy → Type} [FloatOps F] (a0 : IVec S1 32) (a1 a2 : FVec F S1x1x1024 .f32) (a3 : FVec F S50257x1024 .f32)
    (a4 a5 : FVec F S4096x1024 .f32) (a6 a7 : FVec F S4096 .f32) (a8 : FVec F S50257x1024 .f32) (a9 : FVec F S50257 .f32)
    (h : fn (F := F) a0 a1 a2 a3 a4 a5 a6 a7 a8 a9 = fun _ => 1#1) : ∃ x : Fin 50257, a0 = fun _ => BitVec.ofNat 32 x.val := by
  obtain ⟨_, _, _, _, _, _, _, _, _, h0, h1⟩ := fn_split a0 a1 a2 a3 a4 a5 a6 a7 a8 a9 h
  exact token_of_split a0 h0 h1

theorem clip_word (w : BitVec 32) (x : Fin 50257) (hw : w = BitVec.ofNat 32 x.val) :
    IntOp.minsi 50256#32 (IntOp.maxsi 0#32 w) = w := by
  subst hw
  have hx := x.isLt
  have hi : (BitVec.ofNat 32 x.val).toInt = x.val := StableHlo.Predicate.toInt_ofNat_small _ (by omega)
  have h0 : (0#32 : BitVec 32).toInt = 0 := by decide
  have h1 : (50256#32 : BitVec 32).toInt = 50256 := by decide
  have hmax : IntOp.maxsi 0#32 (BitVec.ofNat 32 x.val) = BitVec.ofNat 32 x.val := by
    unfold IntOp.maxsi
    rw [if_neg]
    simp only [BitVec.slt, hi, h0, decide_eq_true_eq]
    omega
  rw [hmax]
  unfold IntOp.minsi
  rw [if_neg]
  simp only [BitVec.slt, hi, h1, decide_eq_true_eq]
  omega

theorem clip_vec (lo hi t : IVec S1 32) (hlo : ∀ i, lo i = 0#32) (hhi : ∀ i, hi i = 50256#32) (x : Fin 50257)
    (ht : t = fun _ => BitVec.ofNat 32 x.val) : minsi hi (maxsi lo t) = t := by
  funext i
  show IntOp.minsi (hi i) (IntOp.maxsi (lo i) (t i)) = t i
  rw [hlo, hhi]
  exact clip_word _ x (by rw [ht])

theorem token_toNat (x : Fin 50257) : (BitVec.ofNat 32 x.val).toNat = x.val := by
  have hx := x.isLt
  simp only [BitVec.toNat_ofNat]
  omega

theorem real_of_fin32 (x : EReal) (h : Fin32 (F := Ideal) (x : Ideal .f32)) : ∃ r : ℝ, x = r := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  simp only [StableHlo.Predicate.ofBool_eq_one_iff, decide_eq_true_eq, max_lt_iff] at h
  induction x using EReal.rec with
  | bot => simp at h
  | coe r => exact ⟨r, rfl⟩
  | top => simp at h

theorem real_of_fn (a0 : IVec S1 32) (a1 a2 : FVec Ideal S1x1x1024 .f32) (a3 : FVec Ideal S50257x1024 .f32)
    (a4 a5 : FVec Ideal S4096x1024 .f32) (a6 a7 : FVec Ideal S4096 .f32) (a8 : FVec Ideal S50257x1024 .f32) (a9 : FVec Ideal S50257 .f32)
    (h : fn (F := Ideal) a0 a1 a2 a3 a4 a5 a6 a7 a8 a9 = fun _ => 1#1) : Cert.Args.Real ⟨a1, a2, a3, a4, a5, a6, a7, a8, a9⟩ := by
  obtain ⟨h1, h2, h3, h4, h5, h6, h7, h8, h9, _, _⟩ := fn_split a0 a1 a2 a3 a4 a5 a6 a7 a8 a9 h
  exact ⟨fun i => real_of_fin32 _ (h1 i), fun i => real_of_fin32 _ (h2 i), fun i => real_of_fin32 _ (h3 i),
    fun i => real_of_fin32 _ (h4 i), fun i => real_of_fin32 _ (h5 i), fun i => real_of_fin32 _ (h6 i),
    fun i => real_of_fin32 _ (h7 i), fun i => real_of_fin32 _ (h8 i), fun i => real_of_fin32 _ (h9 i)⟩

theorem token_of_pre (m : (ℓ : Loc Cert.KernelIdeal.nD Cert.KernelIdeal.τ Cert.KernelIdeal.sig) → Buf (Elt Ideal) ℓ)
    (h : Cert.Pre_KernelIdeal m) (c : Dev Cert.KernelIdeal.nD) :
    ∃ x : Fin 50257, m ((c.tc : Thread Cert.KernelIdeal.nD Cert.KernelIdeal.τ).loc Cert.KernelIdeal.main_arg0)
      = fun _ => BitVec.ofNat 32 x.val := by
  exact token_of_fn _ _ _ _ _ _ _ _ _ _ (h c)

theorem token_of_pre_bits (m : (ℓ : Loc Cert.Kernel.nD Cert.Kernel.τ Cert.Kernel.sig) → Buf (Elt Bits) ℓ)
    (h : Cert.Pre_Kernel m) (c : Dev Cert.Kernel.nD) :
    ∃ x : Fin 50257, m ((c.tc : Thread Cert.Kernel.nD Cert.Kernel.τ).loc Cert.Kernel.main_arg0)
      = fun _ => BitVec.ofNat 32 x.val := by
  exact token_of_fn _ _ _ _ _ _ _ _ _ _ (h c)

theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Args.Real ⟨m ((c.tc : Thread Cert.KernelIdeal.nD Cert.KernelIdeal.τ).loc Cert.KernelIdeal.main_arg1),
      m ((c.tc : Thread Cert.KernelIdeal.nD Cert.KernelIdeal.τ).loc Cert.KernelIdeal.main_arg2),
      m ((c.tc : Thread Cert.KernelIdeal.nD Cert.KernelIdeal.τ).loc Cert.KernelIdeal.main_arg3),
      m ((c.tc : Thread Cert.KernelIdeal.nD Cert.KernelIdeal.τ).loc Cert.KernelIdeal.main_arg4),
      m ((c.tc : Thread Cert.KernelIdeal.nD Cert.KernelIdeal.τ).loc Cert.KernelIdeal.main_arg5),
      m ((c.tc : Thread Cert.KernelIdeal.nD Cert.KernelIdeal.τ).loc Cert.KernelIdeal.main_arg6),
      m ((c.tc : Thread Cert.KernelIdeal.nD Cert.KernelIdeal.τ).loc Cert.KernelIdeal.main_arg7),
      m ((c.tc : Thread Cert.KernelIdeal.nD Cert.KernelIdeal.τ).loc Cert.KernelIdeal.main_arg8),
      m ((c.tc : Thread Cert.KernelIdeal.nD Cert.KernelIdeal.τ).loc Cert.KernelIdeal.main_arg9)⟩ :=
  real_of_fn _ _ _ _ _ _ _ _ _ _ (h c)

end Cert.PreFacts

end
-- ==== Proof.Adm.lean ====
import proofs.«424948_j65738769433295_3_alg».proof.Proof.RunVals
import proofs.«424948_j65738769433295_3_alg».proof.Proof.PreFacts
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo

variable {F : FTy → Type} [FloatOps F] [Named F]

variable (m : (ℓ : Loc nD τ sig) → Buf (Elt F) ℓ)

def Token (x : Fin 50257) : Prop :=
  ∀ c : Dev nD, m ((c : Thread nD τ).loc main_arg0) = fun _ => BitVec.ofNat 32 x.val

theorem V3_main_v0 (x : Fin 50257) (hx : Token m x) (c : Dev nD) :
    V3 m c (Proc.devRef .tc main_v0) = (fun _ => BitVec.ofNat 32 x.val : S1.Idx → BitVec 32) := by
  refine (V3_of m c main_v0 (by decide)).trans ?_
  show StableHlo.after hostOps0_1 (V1 m c) (Proc.devRef .tc main_v0) = _
  after_results
  simp only [TRef.ofBuf, TRef.toBuf, cast_eq]
  exact (Cert.PreFacts.clip_vec (broadcastInDim S1 ![] bcast_S_S1 (id (constantI S_ 32 0#32)))
    (broadcastInDim S1 ![] bcast_S_S1 (id (constantI S_ 32 50256#32))) (V0 m c (Proc.tc.devRef main_arg0))
    (fun _ => rfl) (fun _ => rfl) x (hx c)).trans (hx c)

def tbl : pre0.Contents (Elt F) := fun k => V3 m (0 : Dev nD) (Proc.devRef .tc (pre0.ref k))

theorem tbl_apply (k : Fin pre0.K) : tbl m k = V3 m (0 : Dev nD) (Proc.devRef .tc (pre0.ref k)) := rfl

theorem tbl_token (x : Fin 50257) (hx : Token m x) (r : Rect (pre0.ref 0).ty.shape) (h1 : r.shape.numel = 1) :
    (tbl m).at 0 r h1 = BitVec.ofNat 32 x.val :=
  congrFun (V3_main_v0 m x hx 0) _

theorem tbl_ix (x : Fin 50257) (hx : Token m x) : tbl m 0 (Idealize.ShloMosaic.ValueIdx.ix1 0) = BitVec.ofNat 32 x.val :=
  congrFun (V3_main_v0 m x hx 0) _

attribute [irreducible] tbl

theorem transform0_eq (pf : pre0.Contents (Elt F)) (i : grid0.Coords) :
    cc0_transform_0 inb_S1_S1_0 numel1_S1 pf i
      = ![(pf.at 0 (Rect.unit (s := S1) ![0] S1.size inb_S1_S1_0) numel1_S1).toNat, 0, 0] := rfl

theorem ok0_of_word (pf : pre0.Contents (Elt F)) (n : ℕ) (hn : n < 50257)
    (hw : (pf.at 0 (Rect.unit (s := S1) ![0] S1.size inb_S1_S1_0) numel1_S1).toNat = n) : ok0 pf := fun i =>
  ⟨fun a => by
    rw [transform0_eq pf i, hw]
    match a with
    | ⟨0, _⟩ => show (n + 1) * 1 ≤ 50257; omega
    | ⟨1, _⟩ => show (0 + 1) * 1 ≤ 1; omega
    | ⟨2, _⟩ => show (0 + 1) * 1024 ≤ 1024; omega, Or.inl rfl⟩

theorem tbl_ok (x : Fin 50257) (hx : Token m x) : ok0 (tbl m) :=
  ok0_of_word (tbl m) x.val x.isLt ((congrArg BitVec.toNat (tbl_token m x hx _ _)).trans (Cert.PreFacts.token_toNat x))

def adm (x : Fin 50257) (hx : Token m x) : (p : Fin 2) → (pcfgs (F := F) p).Adm
  | ⟨0, _⟩ => ⟨tbl m, tbl_ok m x hx⟩
  | ⟨1, _⟩ => cfg1.toPCfg_adm
  | ⟨_ + 2, h⟩ => absurd h (Nat.not_lt.2 (Nat.le_add_left _ _))

theorem adm_pf (x : Fin 50257) (hx : Token m x) (c : Dev nD) (k : Fin pre0.K) :
    V3 m c (Proc.devRef .tc (pre0.ref k)) = (adm m x hx 0).1 k := by
  obtain rfl : c = 0 := Subsingleton.elim _ _
  exact (tbl_apply m k).symm

theorem adm_row0 (x : Fin 50257) (hx : Token m x) : row0 (adm m x hx) = x.val := by
  have h : (adm m x hx 0).1 = tbl m := rfl
  unfold row0
  rw [h, tbl_ix m x hx]
  exact Cert.PreFacts.token_toNat x

end Cert.KernelIdeal.Hand

end
-- ==== Proof.Frames.lean ====
import proofs.«424948_j65738769433295_3_alg».proof.Proof.Run
import proofs.«424948_j65738769433295_3_alg».proof.Proof.Adm

noncomputable section

namespace Cert.KernelIdeal.Hand

open Cert.KernelIdeal Cert.KernelIdeal.Gen
open Idealize.ShloMosaic Idealize.ShloMosaic.TcCoe Idealize.SL.Sem

variable {F : FTy → Type} [FloatOps F] [Named F]

variable (m : (ℓ : Loc nD τ sig) → Buf (Elt F) ℓ) (ρ : Dev nD → PrngReg)

/-- The run at the tables a token below the vocabulary size determines. -/
theorem run_token (x : Fin 50257) (hx : Token m x) :
    θ_run defs (onTc (τ := τ) (main (F := F))) ⟨m, fun _ => 0, ρ⟩ (fun r => ∀ c : Dev nD,
      ∀ b ∈ Pipeline.ucRefs τ sig, r.2.mem ((c : Thread nD τ).1, b) = Wfin m (adm m x hx) c b) :=
  run m ρ (adm m x hx) (adm_pf m x hx)

/-- The ten argument arrays of core `c` are in `s` as in the launch memory. -/
abbrev ArgsKept (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)

/-- A memory with every unscoped buffer at the run's final contents has the argument arrays as launched. -/
theorem args_kept (a : (p : Fin 2) → (pcfgs (F := F) p).Adm) (c : Dev nD) (s : (ℓ : Loc nD τ sig) → Buf (Elt F) ℓ)
    (h : ∀ b ∈ Pipeline.ucRefs τ sig, s ((c : Thread nD τ).1, b) = Wfin m a c b) : ArgsKept m s c :=
  have k (r : Ref sig .tc) (hr : r ∈ args) : s ((c.tc : Thread nD τ).loc r) = m ((c.tc : Thread nD τ).loc r) :=
    (h _ (mem_uc r ((by decide : ∀ r ∈ args, ¬ (Proc.devRef .tc r : DevRef τ sig).isScoped) r hr))).trans (Wfin_arg m a c r hr)
  ⟨k main_arg0 (by decide), k main_arg1 (by decide), k main_arg2 (by decide), k main_arg3 (by decide), k main_arg4 (by decide),
    k main_arg5 (by decide), k main_arg6 (by decide), k main_arg7 (by decide), k main_arg8 (by decide), k main_arg9 (by decide)⟩

theorem frame_token (x : Fin 50257) (hx : Token m x) :
    θ_run defs (onTc (τ := τ) (main (F := F))) ⟨m, fun _ => 0, ρ⟩ (fun r => ∀ c : Dev nD, ArgsKept m r.2.mem c) :=
  (θ_run defs _ _).mono (fun _ h c => args_kept m _ c _ (h c)) (run_token m ρ x hx)

end Cert.KernelIdeal.Hand

end
-- ==== Proof.BitsK0Body.lean ====
import proofs.«424948_j65738769433295_3_alg».proof.Proof.Gen.Kernel.Launch
import proofs.«424948_j65738769433295_3_alg».proof.Proof.Gen.Kernel.Skeleton
import proofs.«424948_j65738769433295_3_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Pipeline.Value
import Idealize.ShloMosaic.Lib.ValueIdx
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (ix1 ix3)

variable {F : FTy → Type} [FloatOps F]

local notation "𝕄" => MT nD τ sig Unit (Elt F) ℕ (UR sig nD τ) ℕ
local notation "𝕡" => Pipeline.pin (pcfgs (F := F))

section Region0

variable (V : (c : Dev nD) → (b : Ref sig .tc) → Buf (Elt F) ((c : Thread nD τ).loc b))
variable (a : (p : Fin 2) → (pcfgs (F := F) p).Adm)

def iblk0 (c : Dev nD) (w : Fin 9) (t : Fin grid0.N) :
    (((𝕡 a 0).win w).xblock ((𝕡 a 0).grid.coords t)).Idx → Elt F ((𝕡 a 0).win w).elt :=
  (((𝕡 a 0).win w).blk t).view.read (Elt F) (V c (Pipeline.arrRef spec0 w))

abbrev r0_e : Rect S1x1x1024 := Rect.unit (s := S1x1x1024) ![0, 0, 0] S1x1x1024.size inb_S1x1x1024_S1x1x1024_0_0_0
abbrev r0_v : Rect S1x1024 := Rect.unit (s := S1x1024) ![0, 0] S1x1024.size inb_S1x1024_S1x1024_0_0
abbrev r0_w : Rect S4096x1024 := Rect.unit (s := S4096x1024) ![0, 0] S4096x1024.size inb_S4096x1024_S4096x1024_0_0
abbrev r0_b : Rect S1x4096 := Rect.unit (s := S1x4096) ![0, 0] S1x4096.size inb_S1x4096_S1x4096_0_0

theorem zero2 : (![0, 0] : Fin 2 → ℕ) = fun _ => 0 := by decide
theorem zero3 : (![0, 0, 0] : Fin 3 → ℕ) = fun _ => 0 := by decide

abbrev Fn0 (β : Type) := Vec F S1x1x1024 .f32 → Vec F S1x1024 .f32 → Vec F S1x1024 .f32 → Vec F S4096x1024 .f32 → Vec F S4096x1024 .f32 → Vec F S1x4096 .f32 → Vec F S1x4096 .f32 → β

section Body

variable (k : Fn0 (F := F) (Vec F S1x1024 .f32)) (x0 : Vec F S1x1x1024 .f32) (x1 x2 : Vec F S1x1024 .f32) (x3 x4 : Vec F S4096x1024 .f32) (x5 x6 : Vec F S1x4096 .f32)

def out0 : Vec F S1x1024 .f32 :=
  View.canon [⟨r0_v, k (View.ld x0 r0_e) (View.ld x1 r0_v) (View.ld x2 r0_v) (View.ld x3 r0_w) (View.ld x4 r0_w) (View.ld x5 r0_b) (View.ld x6 r0_b)⟩]

-- Every load and the one store is of a whole buffer: the loads read the contents, the store leaves its payload.
theorem out0_eq : out0 k x0 x1 x2 x3 x4 x5 x6 = k x0 x1 x2 x3 x4 x5 x6 := by
  simp only [out0, View.canon_unit_zero (S := S1x1024) zero2, View.ld_unit_zero (S := S1x1x1024) zero3, View.ld_unit_zero (S := S1x1024) zero2,
    View.ld_unit_zero (S := S4096x1024) zero2, View.ld_unit_zero (S := S1x4096) zero2]

theorem cover0_v (p0 : Vec F S1x1024 .f32) (y : S1x1024.Idx) :
    ∃ pc ∈ ([⟨r0_v, p0⟩] : List (View.Piece (Elt F) S1x1024 .f32)), y ∈ pc.1.set :=
  View.cover_of_tiled [⟨r0_v, p0⟩] S1x1024.size (by rfl) y

theorem sound_kernel0 (c : Dev nD) (E : Set ℕ) (i : grid0.Coords)
    (arg1 : Memref sig .tc .smem S1 .i32) (harg1 : arg1.IsWhole)
    (arg2 : Memref sig .tc .vmem S1x1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S4096x1024 .f32) (harg5 : arg5.IsWhole)
    (arg6 : Memref sig .tc .vmem S4096x1024 .f32) (harg6 : arg6.IsWhole)
    (arg7 : Memref sig .tc .vmem S1x4096 .f32) (harg7 : arg7.IsWhole)
    (arg8 : Memref sig .tc .vmem S1x4096 .f32) (harg8 : arg8.IsWhole)
    (arg9 : Memref sig .tc .vmem S1x1024 .f32) (harg9 : arg9.IsWhole)
    (arg10 : Memref sig .tc .vmem S1x1024 .f32) (harg10 : arg10.IsWhole)
    (y7 y8 : Vec F S1x1024 .f32) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6
        ∗ owns c arg9 fullShare y7 ∗ owns c arg10 fullShare y8
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6
            ∗ owns c arg9 fullShare (out0 k0_pay3 x0 x1 x2 x3 x4 x5 x6)
            ∗ owns c arg10 fullShare (out0 k0_pay2 x0 x1 x2 x3 x4 x5 x6)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, -, H7⟩, ⟨%f8, -, H8⟩, Hk⟩
  subst hf0 hf1 hf2 hf3 hf4 hf5 hf6
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]
  · iexists _; iframe H7; ipureintro
    exact View.read_writes_eq_canon _ _ _ (cover0_v _)
  iexists _; iframe H8; ipureintro
  exact View.read_writes_eq_canon _ _ _ (cover0_v _)

end Body

abbrev at0 {β : Type} (k : Fn0 (F := F) β) (c : Dev nD) (t : Fin grid0.N) : β :=
  k (iblk0 V a c 0 t) (iblk0 V a c 1 t) (iblk0 V a c 2 t) (iblk0 V a c 3 t) (iblk0 V a c 4 t) (iblk0 V a c 5 t) (iblk0 V a c 6 t)

def hOut (c : Dev nD) : Vec F S1x1024 .f32 :=
  at0 V a (out0 k0_pay3) c t0_0

def cOut (c : Dev nD) : Vec F S1x1024 .f32 :=
  at0 V a (out0 k0_pay2) c t0_0

theorem hOut_eq (c : Dev nD) :
    hOut V a c = k0_pay3 (iblk0 V a c 0 t0_0) (iblk0 V a c 1 t0_0) (iblk0 V a c 2 t0_0) (iblk0 V a c 3 t0_0) (iblk0 V a c 4 t0_0) (iblk0 V a c 5 t0_0) (iblk0 V a c 6 t0_0) := out0_eq ..

theorem cOut_eq (c : Dev nD) :
    cOut V a c = k0_pay2 (iblk0 V a c 0 t0_0) (iblk0 V a c 1 t0_0) (iblk0 V a c 2 t0_0) (iblk0 V a c 3 t0_0) (iblk0 V a c 4 t0_0) (iblk0 V a c 5 t0_0) (iblk0 V a c 6 t0_0) := out0_eq ..

def dat0 (c : Dev nD) : Dat τ (Elt F) Unit ℕ (UR sig nD τ) ℕ (𝕡 a 0) c where
  A w := V c (Pipeline.arrRef spec0 w)
  after := fun (w : Fin 9) (t : Fin grid0.N) => match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => iblk0 V a c 4 t
    | ⟨5, _⟩ => iblk0 V a c 5 t
    | ⟨6, _⟩ => iblk0 V a c 6 t
    | ⟨7, _⟩ => at0 V a (out0 k0_pay3) c t
    | ⟨8, _⟩ => at0 V a (out0 k0_pay2) c t
  Φ _ := iprop(Pipeline.ΦA spec0 c ∗ Pipeline.prefHeld pre0 c (fun _ => fullShare) (a 0).1)
  q _ := fullShare
  owed _ := 0

-- Windows 0 to 6 are inputs, and the body leaves in an input's buffer the block it finds there.
theorem input0 (c : Dev nD) (w : Fin 9) (hw : w.val < 7) :
    ((𝕡 a 0).win w).isOut = false ∧ ∀ t d, (dat0 V a c).before w t d = (dat0 V a c).after w t := by
  match w, hw with
  | ⟨0, _⟩, _ | ⟨1, _⟩, _ | ⟨2, _⟩, _ | ⟨3, _⟩, _ | ⟨4, _⟩, _ | ⟨5, _⟩, _ | ⟨6, _⟩, _ =>
    exact ⟨rfl, fun t d => ((dat0 V a c).before_in_eq_fetched _ rfl (fun _ => rfl) (fun _ _ _ => rfl) (fun _ => rfl) t d).trans rfl⟩
  | ⟨n + 7, _⟩, h => exact absurd h (Nat.not_lt.2 (Nat.le_add_left _ _))

theorem body_obligation0 (c : Dev nD) : BodyObligation (dat0 (F := F) V a c) (defs₀ (F := F)) Variants.none () Set.univ := fun t => by
  rw [bigSep_W0, bigSep_W0]
  simp (disch := decide) only [(input0 V a c _ _).2]
  rw [show (dat0 V a c).owesAt () t.succ = (dat0 V a c).owesAt () t.castSucc from rfl]
  dsimp only [dat0, at0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  sl_whnfR [defs₀, Defs.onTc]
  iapply (sound_kernel0 _ _ _ _ _ _ _ c Set.univ _ _ _ _ _ _ _ _ _ _ _ _ _ _ _ _ _ _ _ _ _ _ _ _)
  iframe H0 H1 H2 H3 H4 H5 H6 H7 H8
  iintro H
  iframe

-- A window whose block is its whole array embeds every index at itself: reading through it reads the array, and it covers the array.

theorem emb0_7 (t : Fin grid0.N) (j : S1x1024.Idx) : (((𝕡 a 0).win (7 : Fin 9)).blk t).view.emb j = j :=
  funext fun d => Fin.ext (by match d with | ⟨0, _⟩ | ⟨1, _⟩ => exact (Nat.zero_add _).trans (Nat.one_mul _))

theorem read0_7 (t : Fin grid0.N) (G : Vec F S1x1024 .f32) : (((𝕡 a 0).win (7 : Fin 9)).blk t).view.read (Elt F) G = G :=
  funext fun j => congrArg G (emb0_7 a t j)

theorem arr7_final (c : Dev nD) : (dat0 V a c).arrAt (7 : Fin 9) (𝕡 a 0).N = hOut V a c :=
  (dat0 V a c).arrAt_eq_of_cover (7 : Fin 9) (hOut V a c)
    (fun t _ => by rw [read0_7]; show (dat0 V a c).after (7 : Fin 9) t = _; rw [fin_N0 t]; dsimp only [dat0, hOut])
    fun i => ⟨t0_0, (Pipeline.Window.flush_out _ rfl t0_0).mpr (.inl rfl), emb0_7 a t0_0 i ▸ View.emb_mem_set _ i⟩

theorem emb0_8 (t : Fin grid0.N) (j : S1x1024.Idx) : (((𝕡 a 0).win (8 : Fin 9)).blk t).view.emb j = j :=
  funext fun d => Fin.ext (by match d with | ⟨0, _⟩ | ⟨1, _⟩ => exact (Nat.zero_add _).trans (Nat.one_mul _))

theorem read0_8 (t : Fin grid0.N) (G : Vec F S1x1024 .f32) : (((𝕡 a 0).win (8 : Fin 9)).blk t).view.read (Elt F) G = G :=
  funext fun j => congrArg G (emb0_8 a t j)

theorem arr8_final (c : Dev nD) : (dat0 V a c).arrAt (8 : Fin 9) (𝕡 a 0).N = cOut V a c :=
  (dat0 V a c).arrAt_eq_of_cover (8 : Fin 9) (cOut V a c)
    (fun t _ => by rw [read0_8]; show (dat0 V a c).after (8 : Fin 9) t = _; rw [fin_N0 t]; dsimp only [dat0, cOut])
    fun i => ⟨t0_0, (Pipeline.Window.flush_out _ rfl t0_0).mpr (.inl rfl), emb0_8 a t0_0 i ▸ View.emb_mem_set _ i⟩

theorem arr_in0 (c : Dev nD) (w : Fin 9) (hw : w.val < 7) (n : ℕ) : (dat0 V a c).arrAt w n = V c (Pipeline.arrRef spec0 w) :=
  (dat0 V a c).arrAt_in w (input0 V a c w hw).1 n

def row0 : ℕ := ((a 0).1 0 (ix1 0)).toNat

theorem index0_0 (i : grid0.Coords) : cc0_transform_0 inb_S1_S1_0 numel1_S1 (a 0).1 i 0 = row0 a :=
  congrArg (fun j => ((a 0).1 0 j).toNat) (funext fun d => by match d with | ⟨0, _⟩ => rfl)

-- The admitted table's word names a row of the embedding array: the block it selects lies inside the array.
theorem row0_lt : row0 a < 50257 := by
  obtain ⟨h, -⟩ := (a 0).2 (grid0.coords t0_0)
  have h0 : (cc0_transform_0 inb_S1_S1_0 numel1_S1 (a 0).1 (grid0.coords t0_0) 0 + 1) * 1 ≤ 50257 := h 0
  rw [index0_0] at h0
  omega

theorem iblk0_0 (c : Dev nD) (t : Fin grid0.N) (y0 y1 : Fin 1) (y2 : Fin 1024) :
    iblk0 V a c 0 t (ix3 y0 y1 y2) = V c main_v5 (ix3 ⟨row0 a, row0_lt a⟩ y1 y2) := by
  show V c main_v5 ((((𝕡 a 0).win (0 : Fin 9)).blk t).view.emb (ix3 y0 y1 y2)) = _
  refine congrArg (V c main_v5) ?_
  funext d; apply Fin.ext
  match d with
  | ⟨0, _⟩ =>
    show cc0_transform_0 inb_S1_S1_0 numel1_S1 (a 0).1 (grid0.coords t) 0 * 1 + 1 * y0.val = row0 a
    rw [index0_0]; have := y0.isLt; omega
  | ⟨1, _⟩ | ⟨2, _⟩ => exact (Nat.zero_add _).trans (Nat.one_mul _)

theorem iblk0_1 (c : Dev nD) (t : Fin grid0.N) : iblk0 V a c 1 t = V c main_v1 :=
  funext fun (y : S1x1024.Idx) => congrArg (V c main_v1) (funext fun d => Fin.ext (by match d with | ⟨0, _⟩ | ⟨1, _⟩ => exact (Nat.zero_add _).trans (Nat.one_mul _)))
theorem iblk0_2 (c : Dev nD) (t : Fin grid0.N) : iblk0 V a c 2 t = V c main_v2 :=
  funext fun (y : S1x1024.Idx) => congrArg (V c main_v2) (funext fun d => Fin.ext (by match d with | ⟨0, _⟩ | ⟨1, _⟩ => exact (Nat.zero_add _).trans (Nat.one_mul _)))
theorem iblk0_3 (c : Dev nD) (t : Fin grid0.N) : iblk0 V a c 3 t = V c main_arg4 :=
  funext fun (y : S4096x1024.Idx) => congrArg (V c main_arg4) (funext fun d => Fin.ext (by match d with | ⟨0, _⟩ | ⟨1, _⟩ => exact (Nat.zero_add _).trans (Nat.one_mul _)))
theorem iblk0_4 (c : Dev nD) (t : Fin grid0.N) : iblk0 V a c 4 t = V c main_arg5 :=
  funext fun (y : S4096x1024.Idx) => congrArg (V c main_arg5) (funext fun d => Fin.ext (by match d with | ⟨0, _⟩ | ⟨1, _⟩ => exact (Nat.zero_add _).trans (Nat.one_mul _)))
theorem iblk0_5 (c : Dev nD) (t : Fin grid0.N) : iblk0 V a c 5 t = V c main_v3 :=
  funext fun (y : S1x4096.Idx) => congrArg (V c main_v3) (funext fun d => Fin.ext (by match d with | ⟨0, _⟩ | ⟨1, _⟩ => exact (Nat.zero_add _).trans (Nat.one_mul _)))
theorem iblk0_6 (c : Dev nD) (t : Fin grid0.N) : iblk0 V a c 6 t = V c main_v4 :=
  funext fun (y : S1x4096.Idx) => congrArg (V c main_v4) (funext fun d => Fin.ext (by match d with | ⟨0, _⟩ | ⟨1, _⟩ => exact (Nat.zero_add _).trans (Nat.one_mul _)))

end Region0

end Cert.Kernel.Hand

end
-- ==== Proof.BitsK1Defs.lean ====
import proofs.«424948_j65738769433295_3_alg».proof.Proof.Gen.Kernel.Launch
import proofs.«424948_j65738769433295_3_alg».proof.Proof.Gen.Kernel.Skeleton
import proofs.«424948_j65738769433295_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def pt1 (n : ℕ) : Fin cfg1.N := ⟨n % 26, Nat.lt_of_lt_of_eq (Nat.mod_lt _ (by decide)) N_1.symm⟩

theorem pt1_val (t : Fin cfg1.N) : pt1 t.val = t :=
  Fin.ext (Nat.mod_eq_of_lt (Nat.lt_of_lt_of_eq t.isLt N_1))

def tileAt (c : Dev nD) (t : Fin cfg1.N) : Vec F S1x2048 .f32 :=
  k1_pay7 (grid1.coords t) (iblk1 V c 0 t) (iblk1 V c 2 t) (iblk1 V c 1 t)

def mNext (c : Dev nD) (t : Fin cfg1.N) (m0 : Vec F S1x1 .f32) : Vec F S1x1 .f32 :=
  k1_pay2 (k1_pay8 (grid1.coords t) (iblk1 V c 0 t) (iblk1 V c 2 t) (iblk1 V c 1 t) m0)

def lNext (c : Dev nD) (t : Fin cfg1.N) (m0 l0 : Vec F S1x1 .f32) : Vec F S1x1 .f32 :=
  k1_pay1 (k1_pay9 (grid1.coords t) (iblk1 V c 0 t) (iblk1 V c 2 t) (iblk1 V c 1 t) m0 l0)

def scM (c : Dev nD) : ℕ → Vec F S1x1 .f32
  | 0 => k1_pay5
  | n + 1 => mNext V c (pt1 n) (if n % 13 = 0 then k1_pay5 else scM c n)

def scL (c : Dev nD) : ℕ → Vec F S1x1 .f32
  | 0 => k1_pay6
  | n + 1 => lNext V c (pt1 n) (if n % 13 = 0 then k1_pay5 else scM V c n) (if n % 13 = 0 then k1_pay6 else scL c n)

theorem scM_succ (c : Dev nD) (n : ℕ) :
    scM V c (n + 1) = mNext V c (pt1 n) (if n % 13 = 0 then k1_pay5 else scM V c n) := rfl

theorem scL_succ (c : Dev nD) (n : ℕ) :
    scL V c (n + 1) = lNext V c (pt1 n) (if n % 13 = 0 then k1_pay5 else scM V c n) (if n % 13 = 0 then k1_pay6 else scL V c n) := rfl

def tileIdx (k : ℕ) : S1x2048.Idx :=
  Shape.pair (d := ![1, 2048]) ⟨0, by decide⟩ ⟨k % 2048, Nat.mod_lt _ (by decide)⟩

def laneIdx (k : Fin 128) : S1x1x128.Idx := fun a => match a with
  | ⟨0, _⟩ => (⟨0, by decide⟩ : Fin 1)
  | ⟨1, _⟩ => (⟨0, by decide⟩ : Fin 1)
  | ⟨2, _⟩ => k
  | ⟨_ + 3, h⟩ => absurd h (Nat.not_lt.2 (Nat.le_add_left _ _))

def logitsOut (c : Dev nD) : Buf (Elt F) ((c : Thread nD τ).loc main_v10_0) :=
  fun (j : S1x53248.Idx) => tileAt V c (pt1 ((j 1).val / 2048)) (tileIdx (j 1).val)

def mOut (c : Dev nD) : Buf (Elt F) ((c : Thread nD τ).loc main_v10_1) :=
  fun (j : S2x1x128.Idx) => k1_pay3 (scM V c (13 * (j 0).val + 13)) (laneIdx (j 2))

def lOut (c : Dev nD) : Buf (Elt F) ((c : Thread nD τ).loc main_v10_2) :=
  fun (j : S2x1x128.Idx) => k1_pay4 (scL V c (13 * (j 0).val + 13)) (laneIdx (j 2))

end Cert.Kernel.Hand

end
-- ==== Proof.BitsRunVals.lean ====
import proofs.«424948_j65738769433295_3_alg».proof.Proof.Gen.Kernel.Regions
import proofs.«424948_j65738769433295_3_alg».proof.Proof.BitsK0Body
import proofs.«424948_j65738769433295_3_alg».proof.Proof.BitsK1Defs
import Idealize.ShloMosaic.Lib.Pipeline.FrameSuffix

noncomputable section

namespace Cert.Kernel.Hand

open Cert.Kernel Cert.Kernel.Gen
open Idealize.ShloMosaic Idealize.ShloMosaic.TcCoe

variable {F : FTy → Type} [FloatOps F]

local notation "𝕡" => Pipeline.pin (pcfgs (F := F))

variable (m : (ℓ : Loc nD τ sig) → Buf (Elt F) ℓ)
variable (a : (p : Fin 2) → (pcfgs (F := F) p).Adm)

abbrev E0 : (c : Dev nD) → (b : Ref sig .tc) → Buf (Elt F) ((c : Thread nD τ).loc b) := fun c b => V3 m c b

/-- After region 0: a window's array is what the write-backs made of it, any other buffer what it held on entry. -/
def W4 (c : Dev nD) : Valuation τ sig (Elt F) :=
  Pipeline.withArrays spec0 c (V3 m c) fun w => (dat0 (E0 m) a c).arrAt w (𝕡 a 0).N

theorem W4_arr (c : Dev nD) (w : Fin (𝕡 a 0).W) :
    W4 m a c (Proc.devRef .tc (Pipeline.arrRef spec0 w)) = (dat0 (E0 m) a c).arrAt w (𝕡 a 0).N :=
  Pipeline.withArrays_arr spec0 winFacts0.arr_inj c _ _ w

theorem W4_of_ne (c : Dev nD) (b : Ref sig .tc) (hb : ∀ w, Pipeline.arrRef spec0 w ≠ b) :
    W4 m a c (Proc.devRef .tc b) = V3 m c (Proc.devRef .tc b) :=
  Pipeline.withArrays_of_ne spec0 c _ _ b hb

abbrev X0 : (c : Dev nD) → (b : Ref sig .tc) → Buf (Elt F) ((c : Thread nD τ).loc b) := fun c b => W4 m a c b

/-- Region 0 writes its two results' arrays only. -/
theorem W4_of (c : Dev nD) (r : Ref sig .tc) (h : r ∉ ([main_v6_0, main_v6_1] : List (Ref sig .tc))) :
    W4 m a c (Proc.devRef .tc r) = V3 m c (Proc.devRef .tc r) := by
  by_cases h' : ∃ w : Fin 9, Pipeline.arrRef spec0 w = r
  · obtain ⟨w, rfl⟩ := h'
    exact (W4_arr m a c w).trans (arr_in0 (E0 m) a c w
      ((by decide : ∀ w : Fin 9, Pipeline.arrRef spec0 w ∉ ([main_v6_0, main_v6_1] : List (Ref sig .tc)) → w.val < 7) w h) _)
  · exact W4_of_ne m a c r fun w e => h' ⟨w, e⟩

abbrev W5 (c : Dev nD) : Valuation τ sig (Elt F) := StableHlo.after hostOps1 (W4 m a c)
abbrev W6 (c : Dev nD) : Valuation τ sig (Elt F) := StableHlo.after hostOps1_1 (W5 m a c)
abbrev W7 (c : Dev nD) : Valuation τ sig (Elt F) := StableHlo.after hostOps1_2 (W6 m a c)
abbrev W8 (c : Dev nD) : Valuation τ sig (Elt F) := StableHlo.after hostOps1_3 (W7 m a c)
abbrev W9 (c : Dev nD) : Valuation τ sig (Elt F) := StableHlo.after hostOps1_4 (W8 m a c)

/-- A buffer none of the five stretches between the regions writes is entered into region 1 as region 0 left it. -/
theorem W9_of (c : Dev nD) (r : Ref sig .tc) (h1 : r ∉ hostOps1_W) (h2 : r ∉ hostOps1_1_W) (h3 : r ∉ hostOps1_2_W)
    (h4 : r ∉ hostOps1_3_W) (h5 : r ∉ hostOps1_4_W) : W9 m a c (Proc.devRef .tc r) = W4 m a c (Proc.devRef .tc r) :=
  (StableHlo.after_of_writes_sub hostOps1_4 _ hostOps1_4_writes h5).trans <|
    (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans <|
    StableHlo.after_of_writes_sub hostOps1 _ hostOps1_writes h1

abbrev E1 : (c : Dev nD) → (b : Ref sig .tc) → Buf (Elt F) ((c : Thread nD τ).loc b) := fun c b => W9 m a c b

/-- Region 1's arrays as it leaves them: the inputs as entered, the three results at their named values. -/
def fin1 (c : Dev nD) : (w : Fin 6) → Buf (Elt F) ((spec1 w).arr.view.loc (c : Thread nD τ))
  | ⟨3, _⟩ => logitsOut (E1 m a) c
  | ⟨4, _⟩ => mOut (E1 m a) c
  | ⟨5, _⟩ => lOut (E1 m a) c
  | w => E1 m a c (Pipeline.arrRef spec1 w)

def W10 (c : Dev nD) : Valuation τ sig (Elt F) := Pipeline.withArrays spec1 c (W9 m a c) (fin1 m a c)

theorem W10_arr (c : Dev nD) (w : Fin 6) : W10 m a c (Proc.devRef .tc (Pipeline.arrRef spec1 w)) = fin1 m a c w :=
  Pipeline.withArrays_arr spec1 winFacts1.arr_inj c _ _ w

theorem W10_of_ne (c : Dev nD) (b : Ref sig .tc) (hb : ∀ w, Pipeline.arrRef spec1 w ≠ b) :
    W10 m a c (Proc.devRef .tc b) = W9 m a c (Proc.devRef .tc b) :=
  Pipeline.withArrays_of_ne spec1 c _ _ b hb

abbrev X1 : (c : Dev nD) → (b : Ref sig .tc) → Buf (Elt F) ((c : Thread nD τ).loc b) := fun c b => W10 m a c b

/-- Region 1 writes its three results' arrays only. -/
theorem W10_of (c : Dev nD) (r : Ref sig .tc) (h : r ∉ ([main_v10_0, main_v10_1, main_v10_2] : List (Ref sig .tc))) :
    W10 m a c (Proc.devRef .tc r) = W9 m a c (Proc.devRef .tc r) := by
  by_cases h' : ∃ w : Fin 6, Pipeline.arrRef spec1 w = r
  · obtain ⟨w, rfl⟩ := h'
    refine (W10_arr m a c w).trans ?_
    match w, (by decide : ∀ w : Fin 6, Pipeline.arrRef spec1 w ∉ ([main_v10_0, main_v10_1, main_v10_2] : List (Ref sig .tc)) → w.val < 3) w h with
    | ⟨0, _⟩, _ => rfl
    | ⟨1, _⟩, _ => rfl
    | ⟨2, _⟩, _ => rfl
  · exact W10_of_ne m a c r fun w e => h' ⟨w, e⟩

def Wfin (c : Dev nD) : Valuation τ sig (Elt F) := StableHlo.after hostOps2 (W10 m a c)

abbrev args : List (Ref sig .tc) :=
  [main_arg0, main_arg1, main_arg2, main_arg3, main_arg4, main_arg5, main_arg6, main_arg7, main_arg8, main_arg9]

/-- No item of the program writes an argument array: each ends as launched. -/
theorem Wfin_arg (c : Dev nD) (r : Ref sig .tc) (h : r ∈ args) :
    Wfin m a c (Proc.devRef .tc r) = m ((c : Thread nD τ).loc r) :=
  have d {W : List (Ref sig .tc)} (k : ∀ r ∈ args, r ∉ W) : r ∉ W := k r h
  (StableHlo.after_of_writes_sub hostOps2 _ hostOps2_writes (d (by decide))).trans <|
    (W10_of m a c r (d (by decide))).trans <|
    (W9_of m a c r (d (by decide)) (d (by decide)) (d (by decide)) (d (by decide)) (d (by decide))).trans <|
    (W4_of m a c r (d (by decide))).trans <| (V3_of m c r (d (by decide))).trans <|
    (V2_of m c r (d (by decide))).trans <| (V1_of m c r (d (by decide))).trans rfl

theorem W10_main_v10_0 (c : Dev nD) : W10 m a c (Proc.devRef .tc main_v10_0) = logitsOut (E1 m a) c := W10_arr m a c 3
theorem W10_main_v10_1 (c : Dev nD) : W10 m a c (Proc.devRef .tc main_v10_1) = mOut (E1 m a) c := W10_arr m a c 4
theorem W10_main_v10_2 (c : Dev nD) : W10 m a c (Proc.devRef .tc main_v10_2) = lOut (E1 m a) c := W10_arr m a c 5

/-- Region 0's two results reach region 1, and pass it, untouched. -/
theorem E1_main_v6_0 (c : Dev nD) : E1 m a c main_v6_0 = hOut (E0 m) a c :=
  (W9_of m a c main_v6_0 (by decide) (by decide) (by decide) (by decide) (by decide)).trans <|
    (W4_arr m a c 7).trans (arr7_final (E0 m) a c)
theorem W10_main_v6_0 (c : Dev nD) : W10 m a c (Proc.devRef .tc main_v6_0) = hOut (E0 m) a c :=
  (W10_of m a c main_v6_0 (by decide)).trans (E1_main_v6_0 m a c)
theorem W10_main_v6_1 (c : Dev nD) : W10 m a c (Proc.devRef .tc main_v6_1) = cOut (E0 m) a c :=
  (W10_of m a c main_v6_1 (by decide)).trans <|
    (W9_of m a c main_v6_1 (by decide) (by decide) (by decide) (by decide) (by decide)).trans <|
    (W4_arr m a c 8).trans (arr8_final (E0 m) a c)

end Cert.Kernel.Hand

end
-- ==== Proof.BitsK1Body.lean ====
import proofs.«424948_j65738769433295_3_alg».proof.Proof.BitsK1Defs
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem hz2 : (![0, 0] : Fin 2 → ℕ) = fun _ => 0 := funext fun a => by fin_cases a <;> rfl
theorem hz3 : (![0, 0, 0] : Fin 3 → ℕ) = fun _ => 0 := funext fun a => by fin_cases a <;> rfl

-- a covering store made last decides what is read
theorem read_writes_last_whole {κ sp S e} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

-- one store changes the rectangle it covers and nothing else
theorem read_writes_single_overlay {κ sp S e} (v : View sig κ sp S e) (f : v.ty.Contents (Elt F))
    (r : Rect S) (w : r.shape.Idx → Elt F e) :
    v.read (Elt F) (v.writes (Elt F) f [(⟨r, w⟩ : View.Piece (Elt F) S e)]) = r.overlay (v.read (Elt F) f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy]
    exact View.read_writes_apply_of_forall_not_mem v f y _ fun p hp => by
      rw [List.mem_singleton.mp hp]; exact hy

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

-- the tile index of point t is t mod 13
theorem hcond1 : ∀ t : Fin grid1.N, (cond1_0 (grid1.coords t) ↔ t.val % 13 = 0) ∧ (cond1_1 (grid1.coords t) ↔ t.val % 13 = 12) := by
  decide +kernel

variable (V : (c : Dev nD) → (b : Ref sig .tc) → Buf (Elt F) ((c : Thread nD τ).loc b))
variable (a : (p : Fin 2) → (pcfgs (F := F) p).Adm)

abbrev r3 (i : grid1.Coords) : Rect S1x26624 := Rect.unit (s := S1x26624) (k1_off1 i) S1x2048.size (k1_off1_inb i)

-- before point n the two scratch cells hold the running maximum and the running sum (before the first point, anything)
def Φ1 (c : Dev nD) (n : ℕ) : sProp 𝕄 :=
  iprop(Pipeline.scopedRestBut (Ix := Unit) (Name := ℕ) (U := UR sig nD τ) (Lvl := ℕ) (Val := Elt F) spec1 c [cc1_scratch0, cc1_scratch1]
      ∗ (∃ r, prngReg c r)
      ∗ (∃ d, ⌜n ≠ 0 → d = scM V c n⌝ ∗ owns (c : Thread nD τ) (Memref.whole cc1_scratch0) fullShare d)
      ∗ (∃ d, ⌜n ≠ 0 → d = scL V c n⌝ ∗ owns (c : Thread nD τ) (Memref.whole cc1_scratch1) fullShare d))

def rdat1 (c : Dev nD) : Pipeline.RDat τ (Elt F) Unit ℕ (UR sig nD τ) ℕ (Pipeline.pin (pcfgs (F := F)) a 1) c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = (r3 (grid1.coords t)).overlay Y (tileAt V c t)
    | ⟨4, _⟩ => fun Y X => X = if t.val % 13 = 12 then k1_pay3 (scM V c (t.val + 1)) else Y
    | ⟨5, _⟩ => fun Y X => X = if t.val % 13 = 12 then k1_pay4 (scL V c (t.val + 1)) else Y
  Φ t := Φ1 V c t.val
  q _ := fullShare
  owed _ := 0

theorem A_eq1 (c : Dev nD) (w : Fin cfg1.W) : (rdat1 V a c).A w = V c (Pipeline.arrRef spec1 w) := rfl

theorem scopedRest1_split (c : Dev nD) :
    (Pipeline.scopedRest (Ix := Unit) (Name := ℕ) (U := UR sig nD τ) (Lvl := ℕ) (Val := Elt F) spec1 c : sProp 𝕄)
      = iprop(((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f))
        ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

theorem Φ1_in (c : Dev nD) : (Pipeline.ΦA spec1 c : sProp 𝕄) ⊢ (rdat1 V a c).Φ 0 := by
  show (Pipeline.ΦA spec1 c : sProp 𝕄) ⊢ Φ1 V c 0
  unfold Pipeline.ΦA Φ1
  rw [scopedRest1_split]
  simp only [owns_whole]
  iintro ⟨⟨⟨⟨%f0, H0⟩, ⟨%f1, H1⟩⟩, Hrest⟩, Hr⟩
  iframe Hrest Hr
  isplitl [H0]
  · iexists f0; isplitr; · ipureintro; intro h; exact absurd rfl h
    iexact H0
  · iexists f1; isplitr; · ipureintro; intro h; exact absurd rfl h
    iexact H1

theorem Φ1_out (c : Dev nD) : (rdat1 V a c).Φ (Fin.last _) ⊢ (Pipeline.ΦA spec1 c : sProp 𝕄) := by
  show Φ1 V c _ ⊢ (Pipeline.ΦA spec1 c : sProp 𝕄)
  unfold Pipeline.ΦA Φ1
  rw [scopedRest1_split]
  simp only [owns_whole]
  iintro ⟨Hrest, Hr, ⟨%d0, -, H0⟩, ⟨%d1, -, H1⟩⟩
  iframe Hrest Hr
  isplitl [H0] <;> iexists _ <;> iassumption

-- the body on whole memrefs: the reset branch runs where the tile index is 0, the closing stores where it is 12
set_option maxHeartbeats 1000000 in
theorem sound_kernel1 (c : Dev nD) (E : Set ℕ) (i : grid1.Coords)
    (arg2 : Memref sig .tc .vmem S1x1024 .f32) (harg2 : arg2.IsWhole) (arg3 : Memref sig .tc .vmem S1x2048 .f32) (harg3 : arg3.IsWhole)
    (arg4 : Memref sig .tc .vmem S2048x1024 .f32) (harg4 : arg4.IsWhole) (arg5 : Memref sig .tc .vmem S1x26624 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S1x1 .f32) (harg8 : arg8.IsWhole) (arg9 : Memref sig .tc .vmem S1x1 .f32) (harg9 : arg9.IsWhole)
    (h01 : cond1_0 i → ¬cond1_1 i)
    (x0 x1 x2 y3 y4 y5 m0 l0 m l) (hm : m = if cond1_0 i then k1_pay5 else m0) (hl : l = if cond1_0 i then k1_pay6 else l0) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4 ∗ owns (c : Thread nD τ) arg7 fullShare y5
        ∗ owns (c : Thread nD τ) arg8 fullShare m0 ∗ owns (c : Thread nD τ) arg9 fullShare l0
        ∗ (iprop(owns (c : Thread nD τ) arg2 fullShare x0 ∗ owns (c : Thread nD τ) arg3 fullShare x1 ∗ owns (c : Thread nD τ) arg4 fullShare x2
            ∗ owns (c : Thread nD τ) arg5 fullShare ((r3 i).overlay y3 (k1_pay7 i x0 x2 x1))
            ∗ owns (c : Thread nD τ) arg6 fullShare (if cond1_1 i then k1_pay3 (k1_pay2 (k1_pay8 i x0 x2 x1 m)) else y4)
            ∗ owns (c : Thread nD τ) arg7 fullShare (if cond1_1 i then k1_pay4 (k1_pay1 (k1_pay9 i x0 x2 x1 m l)) else y5)
            ∗ owns (c : Thread nD τ) arg8 fullShare (k1_pay2 (k1_pay8 i x0 x2 x1 m))
            ∗ owns (c : Thread nD τ) arg9 fullShare (k1_pay1 (k1_pay9 i x0 x2 x1 m l))) -∗ K ⟨⟩))
      ⊢ wp frame (wpE (defs₀ (F := F)) Variants.none c none) E (cc1_kernel i arg2 harg2 arg3 harg3 arg4 harg4 arg5 harg5 arg6 harg6 arg7 harg7 arg8 harg8 arg9 harg9) K := by
  subst hm hl
  by_cases hc0 : cond1_0 i <;> by_cases hc1 : cond1_1 i
  · exact absurd hc1 (h01 hc0)
  all_goals
    simp only [hc0, hc1, eq_true hc0, eq_true hc1, if_true, if_false]
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    subst hf0 hf1 hf2 hf3 hf4 hf5 hf8 hf9
    sl_exec (disch := first | exact hc0 | exact hc1)
    sl_step
    iapply Hk
    isplitl [H0]; · iexists _; isplitr; swap; · iexact H0
                    ipureintro; rfl
    isplitl [H1]; · iexists _; isplitr; swap; · iexact H1
                    ipureintro; rfl
    isplitl [H2]; · iexists _; isplitr; swap; · iexact H2
                    ipureintro; rfl
    isplitl [H3]; iexists _; isplitr; swap; iexact H3; ipureintro; refine (read_writes_single_overlay _ _ _ _).trans ?_; rotate_left
    isplitl [H4]; iexists _; isplitr; swap; iexact H4; ipureintro; (first | refine (read_writes_last_whole (S := S1x1x128) _ _ hz3 _ _ _).trans ?_ | skip); rotate_left
    isplitl [H5]; iexists _; isplitr; swap; iexact H5; ipureintro; (first | refine (read_writes_last_whole (S := S1x1x128) _ _ hz3 _ _ _).trans ?_ | skip); rotate_left
    isplitl [H8]; iexists _; isplitr; swap; iexact H8; ipureintro; refine (read_writes_last_whole (S := S1x1) _ _ hz2 _ _ _).trans ?_; rotate_left
    iexists _; isplitr; swap; iexact H9; ipureintro; refine (read_writes_last_whole (S := S1x1) _ _ hz2 _ _ _).trans ?_
    all_goals
      first
      | sl_unfold_run_names; simp only [View.readAt_eq_ld, View.ld_unit_zero (S := S1x1024) hz2, View.ld_unit_zero (S := S2048x1024) hz2, View.ld_unit_zero (S := S1x2048) hz2, View.ld_unit_zero (S := S1x1) hz2, View.readCov_unit_zero (S := S1x1) _ hz2]
      | rfl

-- what a scratch cell holds when the main part reads it: the reset value at a core's first point, else what the invariant names
theorem cell_eq {α : Type} (t : Fin cfg1.N) (z d s : α) (h : t.val ≠ 0 → d = s) :
    (if cond1_0 (grid1.coords t) then z else d) = if t.val % 13 = 0 then z else s := by
  exact if_ctx_congr (hcond1 t).1 (fun _ => rfl) fun e => h fun k => e (by rw [k])

set_option maxHeartbeats 1000000 in
theorem body_obligation1 (c : Dev nD) :
    (rdat1 V a c).BodyObligation (defs₀ (F := F)) Variants.none () Set.univ := fun t Y hY => by
  obtain ⟨_, h0⟩ := (rdat1 V a c).finds_in_eq_fetched 0 rfl (fun _ _ _ => rfl) (fun _ _ _ h => h) t _ (hY 0)
  obtain ⟨_, h1⟩ := (rdat1 V a c).finds_in_eq_fetched 1 rfl (fun _ _ _ => rfl) (fun _ _ _ h => h) t _ (hY 1)
  obtain ⟨_, h2⟩ := (rdat1 V a c).finds_in_eq_fetched 2 rfl (fun _ _ _ => rfl) (fun _ _ _ h => h) t _ (hY 2)
  rw [bigSep_W1, bigSep_W1]
  show iprop(Φ1 V c t.val ∗ _) ⊢ wp frame _ Set.univ (bodyAt1 t) (fun _ => iprop(Φ1 V c (t.val + 1) ∗ _))
  unfold Φ1
  iintro ⟨⟨Hrest, Hr, ⟨%d8, %hd8, H8⟩, %d9, %hd9, H9⟩, Ho, H0, H1, H2, H3, H4, H5⟩
  have hM : scM V c (t.val + 1) = k1_pay2 (k1_pay8 (grid1.coords t) (Y 0) (Y 2) (Y 1) (if cond1_0 (grid1.coords t) then k1_pay5 else d8)) := by
    rw [scM_succ, pt1_val, cell_eq t _ _ _ hd8, h0, h1, h2]; rfl
  have hL : scL V c (t.val + 1) = k1_pay1 (k1_pay9 (grid1.coords t) (Y 0) (Y 2) (Y 1) (if cond1_0 (grid1.coords t) then k1_pay5 else d8) (if cond1_0 (grid1.coords t) then k1_pay6 else d9)) := by
    rw [scL_succ, pt1_val, cell_eq t _ _ _ hd8, cell_eq t _ _ _ hd9, h0, h1, h2]; rfl
  have hT : tileAt V c t = k1_pay7 (grid1.coords t) (Y 0) (Y 2) (Y 1) := by rw [h0, h1, h2]; rfl
  iapply (sound_kernel1 c Set.univ (grid1.coords t) _ _ _ _ _ _ _ _ _ _ _ _ _ _ _ _ (fun e0 e1 => by have := (hcond1 t).1.mp e0; have := (hcond1 t).2.mp e1; omega) (Y 0) (Y 1) (Y 2) (Y 3) (Y 4) (Y 5) d8 d9 _ _ rfl rfl _)
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  isplitl [Hrest Hr H8 H9]
  · iframe Hrest Hr
    isplitl [H8]
    · iexists _; isplitr; · ipureintro; intro _; exact hM.symm
      iexact H8
    · iexists _; isplitr; · ipureintro; intro _; exact hL.symm
      iexact H9
  isplitl [Ho]; · iexact Ho
  isplitl [H0]; · iexists _; isplitr; swap; · iexact H0
                  ipureintro; exact rfl
  isplitl [H1]; · iexists _; isplitr; swap; · iexact H1
                  ipureintro; exact rfl
  isplitl [H2]; · iexists _; isplitr; swap; · iexact H2
                  ipureintro; exact rfl
  isplitl [H3]; · iexists _; isplitr; swap; · iexact H3
                  ipureintro; show _ = _; rw [hT]
  isplitl [H4]; · iexists _; isplitr; swap; · iexact H4
                  ipureintro; show _ = _; rw [hM]; exact if_congr (hcond1 t).2 rfl rfl
  · iexists _; isplitr; swap; · iexact H5
    ipureintro; show _ = _; rw [hL]; exact if_congr (hcond1 t).2 rfl rfl

end Cert.Kernel.Hand

end
-- ==== Proof.BitsK1Arr.lean ====
import proofs.«424948_j65738769433295_3_alg».proof.Proof.BitsK1Body
import Idealize.ShloMosaic.Lib.ValueIdx

namespace Cert.Kernel.Hand

open Cert.Kernel Cert.Kernel.Gen
open Idealize.ShloMosaic Idealize.ShloMosaic.TcCoe
open Idealize.ShloMosaic.ValueIdx (ix2)

variable {F : FTy → Type} [FloatOps F]

variable (V : (c : Dev nD) → (b : Ref sig .tc) → Buf (Elt F) ((c : Thread nD τ).loc b))
variable (a : (p : Fin 2) → (pcfgs (F := F) p).Adm)

-- An element that point `u` writes and no later point writes ends at what `u` left there.
theorem arrAt_last {Λ : Idealize.SL.Sem.Labels} {cfg : Pipeline.Cfg sig Λ} {c : Dev nD} (rd : Pipeline.RDat τ (Elt F) Unit ℕ (UR sig nD τ) ℕ cfg c)
    (w : Fin cfg.W) (u : Fin cfg.N) (hu : (cfg.win w).flush u = true) (j : (cfg.win w).shape.Idx)
    (x : ((cfg.win w).xblock (cfg.grid.coords u)).Idx) (hx : ((cfg.win w).rect u).emb x = j)
    (hl : ∀ t : Fin cfg.N, u.val < t.val → (cfg.win w).flush t = true → j ∉ ((cfg.win w).rect t).set) :
    ∀ n, u.val < n → ∀ hn : n ≤ cfg.N, ∀ A, rd.ArrAt w n A →
      ∃ X, rd.Leaves w u X ∧ (cfg.win w).arr.view.read (Elt F) A j = X ((cfg.win w).xinj _ x) := by
  subst hx
  intro n
  induction n with
  | zero => intro h; omega
  | succ n ih =>
    intro hun hn A hA
    have hA' := (congrFun (rd.ArrAt_succ w ⟨n, hn⟩) A).mp hA
    by_cases e : u.val = n
    · obtain rfl : u = ⟨n, hn⟩ := Fin.ext e
      rw [if_pos hu] at hA'
      obtain ⟨G, X, -, hX, rfl⟩ := hA'
      exact ⟨X, hX, View.read_slice_write_emb (v := (cfg.win w).arr.view) _ G _ (Finset.mem_univ x)⟩
    · have ih' := ih (by omega) (by omega)
      by_cases hf : (cfg.win w).flush ⟨n, hn⟩ = true
      · rw [if_pos hf] at hA'
        obtain ⟨G, X, hG, -, rfl⟩ := hA'
        obtain ⟨X', hX', h'⟩ := ih' G hG
        exact ⟨X', hX', (View.read_slice_write_of_not_mem (v := (cfg.win w).arr.view) _ G _ _
          (by rw [Rect.map_emb_univ]; exact hl ⟨n, hn⟩ (by show u.val < n; omega) hf)).trans h'⟩
      · rw [if_neg hf] at hA'
        exact ih' A hA'

-- Core `r`'s last point.
theorem lastPt {r : ℕ} (hr : r < 2) : ∃ u : Fin grid1.N, u.val = 13 * r + 12 := ⟨⟨_, by rw [N_1]; omega⟩, rfl⟩

theorem index1_3 : ∀ t : Fin grid1.N, win1_3.index t (0 : Fin 2) = 0 ∧ win1_3.index t (1 : Fin 2) = t.val / 13 := by decide +kernel

theorem off1_3 : ∀ t : Fin grid1.N, k1_off1 (grid1.coords t) (0 : Fin 2) = 0
    ∧ k1_off1 (grid1.coords t) (1 : Fin 2) = t.val % 13 * 2048 := by decide +kernel

-- By induction on the point: a point leaves the tiles of its core's points up to it.
theorem leaves1_3 (c : Dev nD) (n : ℕ) : ∀ (hn : n < grid1.N) (X), (rdat1 V a c).Leaves (3 : Fin 6) ⟨n, hn⟩ X →
    ∀ (k : Fin 26624) (q : ℕ), k.val < (n % 13 + 1) * 2048 → q = n / 13 * 26624 + k.val →
      X (ix2 (0 : Fin 1) k) = tileAt V c (pt1 (q / 2048)) (tileIdx q) := by
  induction n using Nat.strongRecOn with | _ n ih => ?_
  rintro hn X ⟨Y, hY, (rfl : X = (r3 _).overlay Y _)⟩ k q hk hq
  obtain ⟨o0, o1⟩ : k1_off1 _ (0 : Fin 2) = 0 ∧ k1_off1 _ (1 : Fin 2) = n % 13 * 2048 := off1_3 ⟨n, hn⟩
  by_cases hin : n % 13 * 2048 ≤ k.val
  · have e : (r3 (grid1.coords ⟨n, hn⟩)).emb (tileIdx q) = (ix2 (0 : Fin 1) k : S1x26624.Idx) := by
      funext d; apply Fin.ext
      match d with
      | ⟨0, _⟩ => show k1_off1 (grid1.coords ⟨n, hn⟩) (0 : Fin 2) + 1 * 0 = 0; omega
      | ⟨1, _⟩ => show k1_off1 (grid1.coords ⟨n, hn⟩) (1 : Fin 2) + 1 * (q % 2048) = k.val; omega
    rw [← e, Rect.overlay_emb]
    exact congrArg (fun p => tileAt V c p _) (Fin.ext (by show n = q / 2048 % 26; have := N_1 ▸ hn; omega))
  · rw [Rect.overlay_of_not_mem _ _ _ fun h => by
      have h1 : k1_off1 _ (1 : Fin 2) ≤ k.val := (Rect.mem_set_unit.mp h (1 : Fin 2)).1
      omega]
    obtain _ | m := n
    · omega
    · rw [(rdat1 V a c).finds_of_pos (Pipeline.Window.fetch_out _ rfl _) (Nat.succ_ne_zero m)] at hY
      obtain hf | hL := hY
      · have : m % 13 = 12 := (flush1_3 _).mp hf
        omega
      · rw [show (m + 1) / 13 = m / 13 by omega] at hq
        exact ih m (Nat.lt_succ_self m) _ Y hL k q (by omega) hq

theorem rect1_3_emb (u : Fin grid1.N) (j : S1x53248.Idx) (k : Fin 26624) (hj : (j 1).val = u.val / 13 * 26624 + k.val) :
    (win1_3.rect u).emb (ix2 (0 : Fin 1) k) = j := by
  funext d; apply Fin.ext
  obtain ⟨e0, e1⟩ := index1_3 u
  match d with
  | ⟨0, _⟩ => show win1_3.index u (0 : Fin 2) * 1 + 1 * 0 = (j 0).val; have : (j 0).val < 1 := (j 0).isLt; omega
  | ⟨1, _⟩ => show win1_3.index u (1 : Fin 2) * 26624 + 1 * k.val = (j 1).val; omega

theorem arr3_final (c : Dev nD) (A) :
    (rdat1 V a c).ArrAt 3 (Pipeline.pin (pcfgs (F := F)) a 1).N A → A = logitsOut V c := fun hA => funext fun (j : S1x53248.Idx) => by
  have h1 : (j 1).val < 53248 := (j 1).isLt
  obtain ⟨u, hu⟩ := lastPt (r := (j 1).val / 26624) (by omega)
  obtain ⟨k, hk⟩ : ∃ k : Fin 26624, k.val = (j 1).val % 26624 := ⟨⟨_, Nat.mod_lt _ (by decide)⟩, rfl⟩
  obtain ⟨X, hX, hr⟩ := arrAt_last (rdat1 V a c) 3 u ((flush1_3 u).mpr (by omega)) j (ix2 (0 : Fin 1) k) (rect1_3_emb u j k (by omega))
    (fun t ht hf h => by
      have h1 : win1_3.index t (1 : Fin 2) * 26624 ≤ (j 1).val := (Rect.mem_set_unit.mp h (1 : Fin 2)).1
      have := (flush1_3 t).mp hf; have := (index1_3 t).2
      omega) _ u.isLt le_rfl A hA
  exact hr.trans (leaves1_3 V a c _ u.isLt X hX k (j 1).val (by omega) (by omega))

theorem index1_4 : ∀ t : Fin grid1.N, win1_4.index t (0 : Fin 3) = t.val / 13 ∧ win1_4.index t (1 : Fin 3) = 0
    ∧ win1_4.index t (2 : Fin 3) = 0 := by decide +kernel

theorem rect1_4_emb (u : Fin grid1.N) (j : S2x1x128.Idx) (hj : (j 0).val = u.val / 13) : (win1_4.rect u).emb (laneIdx (j 2)) = j := by
  funext d; apply Fin.ext
  obtain ⟨e0, e1, e2⟩ := index1_4 u
  match d with
  | ⟨0, _⟩ => show win1_4.index u (0 : Fin 3) * 1 + 1 * 0 = (j 0).val; omega
  | ⟨1, _⟩ => show win1_4.index u (1 : Fin 3) * 1 + 1 * 0 = (j 1).val; have : (j 1).val < 1 := (j 1).isLt; omega
  | ⟨2, _⟩ => show win1_4.index u (2 : Fin 3) * 128 + 1 * (j 2).val = (j 2).val; omega

theorem rect1_4_not_mem (t : Fin grid1.N) (j : S2x1x128.Idx) (hj : (j 0).val < t.val / 13) : j ∉ (win1_4.rect t).set := fun h => by
  have h0 : win1_4.index t (0 : Fin 3) * 1 ≤ (j 0).val := (Rect.mem_set_unit.mp h (0 : Fin 3)).1
  have := (index1_4 t).1; omega

theorem arr4_final (c : Dev nD) (A) :
    (rdat1 V a c).ArrAt 4 (Pipeline.pin (pcfgs (F := F)) a 1).N A → A = mOut V c := fun hA => funext fun (j : S2x1x128.Idx) => by
  obtain ⟨u, hu⟩ := lastPt (j 0).isLt
  obtain ⟨X, ⟨Y, -, hX⟩, hr⟩ := arrAt_last (rdat1 V a c) 4 u ((flush1_4 u).mpr (by omega)) j (laneIdx (j 2)) (rect1_4_emb u j (by omega))
    (fun t ht hf => rect1_4_not_mem t j (by have := (flush1_4 t).mp hf; omega)) _ u.isLt le_rfl A hA
  have e := hX.trans (if_pos (by omega))
  rw [hu] at e
  exact hr.trans (congrFun e _)

-- Window 5's index map is window 4's, so the rectangle facts above serve both.
theorem arr5_final (c : Dev nD) (A) :
    (rdat1 V a c).ArrAt 5 (Pipeline.pin (pcfgs (F := F)) a 1).N A → A = lOut V c := fun hA => funext fun (j : S2x1x128.Idx) => by
  obtain ⟨u, hu⟩ := lastPt (j 0).isLt
  obtain ⟨X, ⟨Y, -, hX⟩, hr⟩ := arrAt_last (rdat1 V a c) 5 u ((flush1_5 u).mpr (by omega)) j (laneIdx (j 2)) (rect1_4_emb u j (by omega))
    (fun t ht hf => rect1_4_not_mem t j (by have := (flush1_5 t).mp hf; omega)) _ u.isLt le_rfl A hA
  have e := hX.trans (if_pos (by omega))
  rw [hu] at e
  exact hr.trans (congrFun e _)

end Cert.Kernel.Hand
-- ==== Proof.BitsRunSegs.lean ====
import proofs.«424948_j65738769433295_3_alg».proof.Proof.BitsRunVals
import proofs.«424948_j65738769433295_3_alg».proof.Proof.BitsK1Body
import proofs.«424948_j65738769433295_3_alg».proof.Proof.BitsK1Arr
import Idealize.ShloMosaic.Lib.Pipeline.Regions
import Idealize.ShloMosaic.Lib.Pipeline.RegionsLoop
import Idealize.ShloMosaic.Lib.Pipeline.Kit

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

local notation "𝕡" => Pipeline.pin (pcfgs (F := F))

open Idealize.ShloMosaic.Pipeline (RDat)

variable (m : (ℓ : Loc nD τ sig) → Buf (Elt F) ℓ)

variable (a : (p : Fin 2) → (pcfgs (F := F) p).Adm)

def rdats : (p : Fin 2) → (c : Dev nD) → RDat τ (Elt F) Unit ℕ (UR sig nD τ) ℕ (𝕡 a p) c
  | ⟨0, _⟩ => fun c => (dat0 (E0 m) a c).toR
  | ⟨1, _⟩ => fun c => rdat1 (E1 m a) a c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem unscopedBufs_of_arraysAt (p : Fin 2) (hw : Pipeline.WinFacts (𝕡 a p).spec) (harr : ∀ w, ((𝕡 a p).spec w).arr.IsWhole)
    (c : Dev nD) (hshare : ∀ w, (rdats m a p c).share w = fullShare)
    (V V' : (b : Ref sig .tc) → Buf (Elt F) ((c : Thread nD τ).loc b))
    (hfinal : ∀ w A, (rdats m a p c).ArrAt w (𝕡 a p).N A → A = V' (Pipeline.arrRef (𝕡 a p).spec w))
    (hrest : ∀ b, (∀ w, Pipeline.arrRef (𝕡 a p).spec w ≠ b) → V' b = V b) :
    iprop((rdats m a p c).arraysAt (𝕡 a p).N ∗ Pipeline.unscopedRest (𝕡 a p).spec c V) ⊢ (unscopedBufs c V' : sProp 𝕄) := by
  have h1 : (rdats m a p c).arraysAt (𝕡 a p).N ⊢ ((rdats m a p c).arrays fun w => V' (Pipeline.arrRef (𝕡 a p).spec w) : sProp 𝕄) :=
    BI.bigSep_mono fun w _ => show (_ : sProp 𝕄) ⊢ _ from by iintro ⟨%A, %hA, H⟩; rw [hfinal w A hA]; iexact H
  rw [Pipeline.RDat.arrays_eq (pcfgs (F := F)) a (rdats m a) p c harr hshare] at h1
  rw [Pipeline.unscopedBufs_split (𝕡 a) p hw.arr_unscoped hw.arr_inj c V']
  refine sep_mono h1 (Entails.of_eq ?_)
  unfold Pipeline.unscopedRest
  exact bigSep_congr fun b hb => by
    rw [hrest b fun w e => (Finset.mem_sdiff.mp hb).2 (Finset.mem_image.mpr ⟨w, Finset.mem_univ _, e⟩)]

theorem fin1_final (c : Dev nD) (w : Fin 6) (A : Buf (Elt F) ((spec1 w).arr.view.loc (c : Thread nD τ)))
    (h : (rdat1 (E1 m a) a c).ArrAt w (𝕡 a 1).N A) : A = fin1 m a c w := by
  have hw : ∀ w : Fin 6, w = 0 ∨ w = 1 ∨ w = 2 ∨ w = 3 ∨ w = 4 ∨ w = 5 := by decide
  rcases hw w with rfl | rfl | rfl | rfl | rfl | rfl
  · rw [(rdat1 (E1 m a) a c).ArrAt_in 0 (by rfl)] at h; exact h.trans (A_eq1 (E1 m a) a c 0)
  · rw [(rdat1 (E1 m a) a c).ArrAt_in 1 (by rfl)] at h; exact h.trans (A_eq1 (E1 m a) a c 1)
  · rw [(rdat1 (E1 m a) a c).ArrAt_in 2 (by rfl)] at h; exact h.trans (A_eq1 (E1 m a) a c 2)
  exacts [arr3_final (E1 m a) a c A h, arr4_final (E1 m a) a c A h, arr5_final (E1 m a) a c A h]

variable (hpf : ∀ (c : Dev nD) (k : Fin pre0.K), V3 m c (Proc.devRef .tc (pre0.ref k)) = (a 0).1 k)

include hpf in
theorem rest0_split (c : Dev nD) :
    (Pipeline.unscopedRest (Ix := Unit) (Name := ℕ) (U := UR sig nD τ) (Lvl := ℕ) (𝕡 a 0).spec c (E0 m c) : sProp 𝕄)
      = iprop(Pipeline.prefHeld pre0 c (fun _ => fullShare) (a 0).1 ∗ Pipeline.unscopedRestP pre0 spec0 c (E0 m c)) := by
  have e := Pipeline.unscopedRest_split (Ix := Unit) (Name := ℕ) (U := UR sig nD τ) (Lvl := ℕ) (Val := Elt F) preFacts0 c (E0 m c)
  rw [show (fun k => E0 m c (pre0.ref k)) = (a 0).1 from funext (hpf c)] at e
  exact e

set_option backward.isDefEq.respectTransparency.types false in

def reg0 : Pipeline.RDat.RegionSeg (pcfgs (F := F)) a (rdats m a) () defs₀ 𝒱₀ L lv 0 where
  win := winFacts0.to₀
  block_pos := block_pos0
  stage_whole := stage_whole0
  K := PEmpty
  osem k := k.elim
  ho := Pipeline.OwnSemFacts.none _
  hbody c := (body_obligation0 (E0 m) a c).loose.toR
  hwaits := Pipeline.RDat.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m a c) ∗ R c)
  X c := iprop(∃ r, prngReg c r)
  Y c := iprop((∃ r, prngReg c r) ∗ Pipeline.prefHeld pre0 c (fun _ => fullShare) (a 0).1)
  Z c := Pipeline.unscopedRestP (Ix := Unit) (Name := ℕ) (U := UR sig nD τ) (Lvl := ℕ) pre0 spec0 c (E0 m c)
  hentry c := by
    rw [Pipeline.ownSems0_none]
    have hsplit := Pipeline.RDat.arrays_of_unscopedBufs (p := 0) (pcfgs (F := F)) a (rdats m a) winFacts0 arr_whole0 c
      ((rdats m a 0 c).share_full fun _ => rfl) (E0 m c) fun _ => rfl
    rw [Pipeline.unscopedBufs_held, rest0_split m a hpf c] at hsplit
    iintro ⟨⟨Hub, Hp, HO⟩, -, -⟩
    ihave H := hsplit $$ Hub
    icases H with ⟨Ha, Hpf, Hrest⟩
    imodintro
    iframe Ha Hpf Hp Hrest
    unfold Pipeline.RDat.owesAt Pipeline.owesWithin
    icases HO with ⟨%W, HO⟩; iexists W; isplitr; · ipureintro; exact fun _ _ => Or.inl trivial
    iexact HO
  hin c := by
    rw [show (rdats m a 0 c).Φ 0 = iprop(Pipeline.ΦA spec0 c ∗ Pipeline.prefHeld pre0 c (fun _ => fullShare) (a 0).1) from rfl]; unfold Pipeline.ΦA
    iintro ⟨Hp, Hpf, Hr⟩
    iframe
  hout c := by
    rw [Pipeline.ownSems0_none, show (rdats m a 0 c).Φ (Fin.last _) = iprop(Pipeline.ΦA spec0 c ∗ Pipeline.prefHeld pre0 c (fun _ => fullShare) (a 0).1) from rfl]; unfold Pipeline.ΦA
    iintro ⟨⟨Hr, Hp⟩, Hpf⟩
    iframe; iempintro
  hexit c := by
    have hjoin := unscopedBufs_of_arraysAt m a 0 winFacts0 arr_whole0 c ((rdats m a 0 c).share_full fun _ => rfl)
      (E0 m c) (X0 m a c) (fun w A h => ((dat0 (E0 m) a c).toR_arrAt w _ A h).trans (W4_arr m a c w).symm) (W4_of_ne m a c)
    rw [Pipeline.unscopedBufs_held, rest0_split m a hpf c] at hjoin
    iintro ⟨Ha, HO, ⟨HY, Hpf⟩, Hrest⟩
    imodintro
    isplitl [Ha Hrest Hpf]
    · iapply hjoin; iframe
    isplitl [HY]; · iexact HY
    unfold Pipeline.RDat.owesAt Pipeline.owesWithin
    icases HO with ⟨%W, -, HO⟩; iexists W; iexact HO

abbrev Tₙ (c : Dev nD) : sProp 𝕄 := iprop(StableHlo.held (c : Thread nD τ) (Pipeline.ucRefs τ sig) (Wfin m a c) ∗ ∃ r, prngReg c r)

set_option backward.isDefEq.respectTransparency.types false in

def reg1 : Pipeline.RDat.RegionSeg (pcfgs (F := F)) a (rdats m a) () defs₀ 𝒱₀ L lv 1 where
  win := winFacts1.to₀
  block_pos := block_pos1
  stage_whole := stage_whole1
  K := PEmpty
  osem k := k.elim
  ho := Pipeline.OwnSemFacts.none _
  hbody c := body_obligation1 (E1 m a) a c
  hwaits := Pipeline.RDat.hwaits_of_owed_zero _ _ _ _ L lv 1 fun _ _ => rfl
  pre c := iprop(StableHlo.held (c : Thread nD τ) (Pipeline.ucRefs τ sig) (W9 m a c) ∗ R c)
  post c := iprop(StableHlo.held (c : Thread nD τ) (Pipeline.ucRefs τ sig) (W10 m a c) ∗ R c)
  X c := iprop(∃ r, prngReg c r)
  Y c := iprop(∃ r, prngReg c r)
  Z c := Pipeline.unscopedRest (Ix := Unit) (Name := ℕ) (U := UR sig nD τ) (Lvl := ℕ) spec1 c (E1 m a c)
  hentry c := by
    rw [Pipeline.ownSems0_none]
    have hsplit := Pipeline.RDat.arrays_of_unscopedBufs (p := 1) (pcfgs (F := F)) a (rdats m a) winFacts1 arr_whole1 c
      ((rdats m a 1 c).share_full fun _ => rfl) (E1 m a c) fun w => A_eq1 (E1 m a) a c w
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.RDat.owesAt Pipeline.owesWithin
    icases HO with ⟨%W, HO⟩; iexists W; isplitr; · ipureintro; exact fun _ _ => Or.inl trivial
    iexact HO
  hin c := by
    refine BIBase.Entails.trans ?_ (Φ1_in (E1 m a) a c)
    unfold Pipeline.ΦA
    iintro ⟨Hp, -, Hr⟩
    iframe
  hout c := by
    rw [Pipeline.ownSems0_none]
    refine BIBase.Entails.trans (Φ1_out (E1 m a) a c) ?_
    unfold Pipeline.ΦA
    iintro ⟨Hr, Hp⟩
    iframe; iempintro
  hexit c := by
    have hjoin := unscopedBufs_of_arraysAt m a 1 winFacts1 arr_whole1 c ((rdats m a 1 c).share_full fun _ => rfl)
      (E1 m a c) (X1 m a c) (fun w A h => (fin1_final m a c w A h).trans (W10_arr m a c w).symm) (W10_of_ne m a c)
    rw [Pipeline.unscopedBufs_held] at hjoin
    iintro ⟨Ha, HO, HY, Hrest⟩
    imodintro
    isplitl [Ha Hrest]
    · iapply hjoin; iframe
    isplitl [HY]; · iexact HY
    unfold Pipeline.RDat.owesAt Pipeline.owesWithin
    icases HO with ⟨%W, -, HO⟩; iexists W; iexact HO

end Cert.Kernel.Hand

end
-- ==== Proof.BitsRun.lean ====
import proofs.«424948_j65738769433295_3_alg».proof.Proof.BitsRunSegs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

local notation "𝕡" => Pipeline.pin (pcfgs (F := F))

variable (m : (ℓ : Loc nD τ sig) → Buf (Elt F) ℓ) (ρ : Dev nD → PrngReg)

variable (a : (p : Fin 2) → (pcfgs (F := F) p).Adm)

variable (hpf : ∀ (c : Dev nD) (k : Fin pre0.K), V3 m c (Proc.devRef .tc (pre0.ref k)) = (a 0).1 k)

abbrev segs : List (Pipeline.RDat.Seg (pcfgs (F := F)) a (rdats m a) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m a hpf),
    .host (hseg hostOps1 hostOps1_sub hostOps1_fresh (W4 m a)),
    .host (hseg hostOps1_1 hostOps1_1_sub hostOps1_1_fresh (W5 m a)),
    .host (hseg hostOps1_2 hostOps1_2_sub hostOps1_2_fresh (W6 m a)),
    .host (hseg hostOps1_3 hostOps1_3_sub hostOps1_3_fresh (W7 m a)),
    .host (hseg hostOps1_4 hostOps1_4_sub hostOps1_4_fresh (W8 m a)),
    .region (reg1 m a),
    .host (hseg hostOps2 hostOps2_sub hostOps2_fresh (W10 m a)) ]

theorem main_run (c : Dev nD) : main (F := F) c = Pipeline.RDat.Seg.run (segs m a hpf) := by
  rw [main_chain c, Pipeline.RDat.Seg.run_eq_chain]; rfl

set_option backward.isDefEq.respectTransparency.types false in

theorem run (hpf : ∀ (c : Dev nD) (k : Fin pre0.K), V3 m c (Proc.devRef .tc (pre0.ref k)) = (a 0).1 k) :
    θ_run defs (onTc (τ := τ) (main (F := F))) ⟨m, fun _ => 0, ρ⟩ (fun r => ∀ c : Dev nD,
      ∀ b ∈ Pipeline.ucRefs τ sig, r.2.mem ((c : Thread nD τ).1, b) = Wfin m a c b) :=
  Pipeline.RDat.θ_run_regions_kit (pcfgs (F := F)) a (rdats m a) () (cellOf_inj a) emb₁ defs₀ 𝒱₀ L lv m ρ main (segs m a hpf)
    (fun c Q => by rw [main_run m a hpf c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells (𝕡 a) (cellOf_inj a)) (Pipeline.launchToks (𝕡 a) (cellOf_inj a)))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m a)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c =>
        show iprop(_ ∗ R c) ⊢ (iprop(Tₙ m a c ∗ _) : sProp 𝕄) from by
          iintro ⟨Hh, Hp, HO⟩; iframe
          isplitl [Hh]; · iexact Hh
          iexact Hp⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m a c b)
    (hfin := fun c s' => by
      iintro ⟨⟨Hh, -⟩, HSI⟩
      unfold StableHlo.held
      imodintro
      iapply (pointsTo_read_all (Pipeline.ucRefs τ sig) (fun b => (((c : Thread nD τ)).1, b)) (Wfin m a c) s')
      isplitl [Hh] <;> iassumption)
    (hQ := fun s h => h)

end Cert.Kernel.Hand

end
-- ==== Proof.BitsAdm.lean ====
import proofs.«424948_j65738769433295_3_alg».proof.Proof.BitsRunVals
import proofs.«424948_j65738769433295_3_alg».proof.Proof.PreFacts
import Idealize.ShloMosaic.Lib.StableHlo.Run

noncomputable section

namespace Cert.Kernel.Hand

open Cert.Kernel Cert.Kernel.Gen
open Idealize.ShloMosaic Idealize.ShloMosaic.TcCoe Idealize.ShloMosaic.StableHlo

variable {F : FTy → Type} [FloatOps F]

variable (m : (ℓ : Loc nD τ sig) → Buf (Elt F) ℓ)

def Token (x : Fin 50257) : Prop :=
  ∀ c : Dev nD, m ((c : Thread nD τ).loc main_arg0) = fun _ => BitVec.ofNat 32 x.val

theorem V3_main_v0 (x : Fin 50257) (hx : Token m x) (c : Dev nD) :
    V3 m c (Proc.devRef .tc main_v0) = (fun _ => BitVec.ofNat 32 x.val : S1.Idx → BitVec 32) := by
  refine (V3_of m c main_v0 (by decide)).trans ?_
  show StableHlo.after hostOps0_1 (V1 m c) (Proc.devRef .tc main_v0) = _
  after_results
  simp only [TRef.ofBuf, TRef.toBuf, cast_eq]
  exact (Cert.PreFacts.clip_vec (broadcastInDim S1 ![] bcast_S_S1 (id (constantI S_ 32 0#32)))
    (broadcastInDim S1 ![] bcast_S_S1 (id (constantI S_ 32 50256#32))) (V0 m c (Proc.tc.devRef main_arg0))
    (fun _ => rfl) (fun _ => rfl) x (hx c)).trans (hx c)

def tbl : pre0.Contents (Elt F) := fun k => V3 m (0 : Dev nD) (Proc.devRef .tc (pre0.ref k))

theorem tbl_apply (k : Fin pre0.K) : tbl m k = V3 m (0 : Dev nD) (Proc.devRef .tc (pre0.ref k)) := rfl

theorem tbl_token (x : Fin 50257) (hx : Token m x) (r : Rect (pre0.ref 0).ty.shape) (h1 : r.shape.numel = 1) :
    (tbl m).at 0 r h1 = BitVec.ofNat 32 x.val :=
  congrFun (V3_main_v0 m x hx 0) _

theorem tbl_ix (x : Fin 50257) (hx : Token m x) : tbl m 0 (Idealize.ShloMosaic.ValueIdx.ix1 0) = BitVec.ofNat 32 x.val :=
  congrFun (V3_main_v0 m x hx 0) _

attribute [irreducible] tbl

theorem transform0_eq (pf : pre0.Contents (Elt F)) (i : grid0.Coords) :
    cc0_transform_0 inb_S1_S1_0 numel1_S1 pf i
      = ![(pf.at 0 (Rect.unit (s := S1) ![0] S1.size inb_S1_S1_0) numel1_S1).toNat, 0, 0] := rfl

theorem ok0_of_word (pf : pre0.Contents (Elt F)) (n : ℕ) (hn : n < 50257)
    (hw : (pf.at 0 (Rect.unit (s := S1) ![0] S1.size inb_S1_S1_0) numel1_S1).toNat = n) : ok0 pf := fun i =>
  ⟨fun a => by
    rw [transform0_eq pf i, hw]
    match a with
    | ⟨0, _⟩ => show (n + 1) * 1 ≤ 50257; omega
    | ⟨1, _⟩ => show (0 + 1) * 1 ≤ 1; omega
    | ⟨2, _⟩ => show (0 + 1) * 1024 ≤ 1024; omega, Or.inl rfl⟩

theorem tbl_ok (x : Fin 50257) (hx : Token m x) : ok0 (tbl m) :=
  ok0_of_word (tbl m) x.val x.isLt ((congrArg BitVec.toNat (tbl_token m x hx _ _)).trans (Cert.PreFacts.token_toNat x))

def adm (x : Fin 50257) (hx : Token m x) : (p : Fin 2) → (pcfgs (F := F) p).Adm
  | ⟨0, _⟩ => ⟨tbl m, tbl_ok m x hx⟩
  | ⟨1, _⟩ => cfg1.toPCfg_adm
  | ⟨_ + 2, h⟩ => absurd h (Nat.not_lt.2 (Nat.le_add_left _ _))

theorem adm_pf (x : Fin 50257) (hx : Token m x) (c : Dev nD) (k : Fin pre0.K) :
    V3 m c (Proc.devRef .tc (pre0.ref k)) = (adm m x hx 0).1 k := by
  obtain rfl : c = 0 := Subsingleton.elim _ _
  exact (tbl_apply m k).symm

theorem adm_row0 (x : Fin 50257) (hx : Token m x) : row0 (adm m x hx) = x.val := by
  have h : (adm m x hx 0).1 = tbl m := rfl
  unfold row0
  rw [h, tbl_ix m x hx]
  exact Cert.PreFacts.token_toNat x

end Cert.Kernel.Hand

end
-- ==== Proof.BitsFrames.lean ====
import proofs.«424948_j65738769433295_3_alg».proof.Proof.BitsRun
import proofs.«424948_j65738769433295_3_alg».proof.Proof.BitsAdm

noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The run at the tables a token below the vocabulary size determines. -/
theorem run_token (x : Fin 50257) (hx : Token m x) :
    θ_run defs (onTc (τ := τ) (main (F := F))) ⟨m, fun _ => 0, ρ⟩ (fun r => ∀ c : Dev nD,
      ∀ b ∈ Pipeline.ucRefs τ sig, r.2.mem ((c : Thread nD τ).1, b) = Wfin m (adm m x hx) c b) :=
  run m ρ (adm m x hx) (adm_pf m x hx)

/-- The ten argument arrays of core `c` are in `s` as in the launch memory. -/
abbrev ArgsKept (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)

/-- A memory with every unscoped buffer at the run's final contents has the argument arrays as launched. -/
theorem args_kept (a : (p : Fin 2) → (pcfgs (F := F) p).Adm) (c : Dev nD) (s : (ℓ : Loc nD τ sig) → Buf (Elt F) ℓ)
    (h : ∀ b ∈ Pipeline.ucRefs τ sig, s ((c : Thread nD τ).1, b) = Wfin m a c b) : ArgsKept m s c :=
  have k (r : Ref sig .tc) (hr : r ∈ args) : s ((c.tc : Thread nD τ).loc r) = m ((c.tc : Thread nD τ).loc r) :=
    (h _ (mem_uc r ((by decide : ∀ r ∈ args, ¬ (Proc.devRef .tc r : DevRef τ sig).isScoped) r hr))).trans (Wfin_arg m a c r hr)
  ⟨k main_arg0 (by decide), k main_arg1 (by decide), k main_arg2 (by decide), k main_arg3 (by decide), k main_arg4 (by decide),
    k main_arg5 (by decide), k main_arg6 (by decide), k main_arg7 (by decide), k main_arg8 (by decide), k main_arg9 (by decide)⟩

theorem frame_token (x : Fin 50257) (hx : Token m x) :
    θ_run defs (onTc (τ := τ) (main (F := F))) ⟨m, fun _ => 0, ρ⟩ (fun r => ∀ c : Dev nD, ArgsKept m r.2.mem c) :=
  (θ_run defs _ _).mono (fun _ h c => args_kept m _ c _ (h c)) (run_token m ρ x hx)

end Cert.Kernel.Hand

end
-- ==== Proof.RunReads.lean ====
import proofs.«424948_j65738769433295_3_alg».proof.Proof.RunVals
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

open StableHlo

variable (m : (ℓ : Loc nD τ sig) → Buf (Elt F) ℓ)

variable (a : (p : Fin 2) → (pcfgs (F := F) p).Adm)

/-- No operation before region 0 writes an argument array, and region 0 writes none. -/
theorem V2_arg (c : Dev nD) (r : Ref sig .tc) (h : r ∈ args) : V2 m c (Proc.devRef .tc r) = m ((c : Thread nD τ).loc r) :=
  (V2_of m c r ((by decide : ∀ r ∈ args, r ∉ hostOps0_1_W) r h)).trans <|
    (V1_of m c r ((by decide : ∀ r ∈ args, r ∉ hostOps0_W) r h)).trans rfl
theorem E0_arg (c : Dev nD) (r : Ref sig .tc) (h : r ∈ args) : E0 m c r = m ((c : Thread nD τ).loc r) :=
  (V3_of m c r ((by decide : ∀ r ∈ args, r ∉ hostOps0_2_W) r h)).trans (V2_arg m c r h)
theorem W4_arg (c : Dev nD) (r : Ref sig .tc) (h : r ∈ args) : W4 m a c (Proc.devRef .tc r) = m ((c : Thread nD τ).loc r) :=
  (W4_of m a c r ((by decide : ∀ r ∈ args, r ∉ ([main_v6_0, main_v6_1] : List (Ref sig .tc))) r h)).trans (E0_arg m c r h)

theorem E0_main_v1 (c : Dev nD) :
    E0 m c main_v1 = fun i => shapeCast S1x1024 (m ((c : Thread nD τ).loc main_arg1)) shapeCasts_S1x1x1024_S1x1024 i := by
  rw [← V2_arg m c main_arg1 (by decide)]
  show StableHlo.after hostOps0_2 (V2 m c) (Proc.devRef .tc main_v1) = _
  simp only [hostOps0_2]
  after_results
  rfl
theorem E0_main_v2 (c : Dev nD) :
    E0 m c main_v2 = fun i => shapeCast S1x1024 (m ((c : Thread nD τ).loc main_arg2)) shapeCasts_S1x1x1024_S1x1024 i := by
  rw [← V2_arg m c main_arg2 (by decide)]
  show StableHlo.after hostOps0_2 (V2 m c) (Proc.devRef .tc main_v2) = _
  simp only [hostOps0_2]
  after_results
  rfl
theorem E0_main_v3 (c : Dev nD) :
    E0 m c main_v3 = fun i => shapeCast S1x4096 (m ((c : Thread nD τ).loc main_arg6)) shapeCasts_S4096_S1x4096 i := by
  rw [← V2_arg m c main_arg6 (by decide)]
  show StableHlo.after hostOps0_2 (V2 m c) (Proc.devRef .tc main_v3) = _
  simp only [hostOps0_2]
  after_results
  rfl
theorem E0_main_v4 (c : Dev nD) :
    E0 m c main_v4 = fun i => shapeCast S1x4096 (m ((c : Thread nD τ).loc main_arg7)) shapeCasts_S4096_S1x4096 i := by
  rw [← V2_arg m c main_arg7 (by decide)]
  show StableHlo.after hostOps0_2 (V2 m c) (Proc.devRef .tc main_v4) = _
  simp only [hostOps0_2]
  after_results
  rfl
theorem E0_main_v5 (c : Dev nD) :
    E0 m c main_v5 = fun i => shapeCast S50257x1x1024 (m ((c : Thread nD τ).loc main_arg3)) shapeCasts_S50257x1024_S50257x1x1024 i := by
  rw [← V2_arg m c main_arg3 (by decide)]
  show StableHlo.after hostOps0_2 (V2 m c) (Proc.devRef .tc main_v5) = _
  simp only [hostOps0_2]
  after_results
  rfl

theorem E1_main_v7 (c : Dev nD) :
    E1 m a c main_v7 = pad S53248x1024 ![0, 0] ![2991, 0] ![0, 0] (m ((c : Thread nD τ).loc main_arg8))
      (sitofp .f32 (constantI S_ 32 0#32 : (⟨S_, .i32⟩ : BufTy).Contents (Elt F))) pads_S50257x1024_S53248x1024_029910_000 h_S_ := by
  rw [← W4_arg m a c main_arg8 (by decide)]
  show StableHlo.after hostOps1_4 (StableHlo.after hostOps1_3 (StableHlo.after hostOps1_2 (StableHlo.after hostOps1_1 (StableHlo.after hostOps1 (W4 m a c))))) (Proc.devRef .tc main_v7) = _
  simp only [hostOps1_4, hostOps1_3, hostOps1_2, hostOps1_1, hostOps1]
  after_results
  rfl

theorem E1_main_v9 (c : Dev nD) :
    E1 m a c main_v9 = fun i => shapeCast S1x53248 (pad S53248 ![0] ![2991] ![0] (m ((c : Thread nD τ).loc main_arg9))
      (sitofp .f32 (constantI S_ 32 0#32 : (⟨S_, .i32⟩ : BufTy).Contents (Elt F))) pads_S50257_S53248_029910 h_S_) shapeCasts_S53248_S1x53248 i := by
  rw [← W4_arg m a c main_arg9 (by decide)]
  show StableHlo.after hostOps1_4 (StableHlo.after hostOps1_3 (StableHlo.after hostOps1_2 (StableHlo.after hostOps1_1 (StableHlo.after hostOps1 (W4 m a c))))) (Proc.devRef .tc main_v9) = _
  simp only [hostOps1_4, hostOps1_3, hostOps1_2, hostOps1_1, hostOps1]
  after_results
  rfl

end Cert.KernelIdeal.Hand

end
-- ==== Proof.LibMatmulAt.lean ====
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

end Idealize.ShloMosaic.MatmulAt

end
-- ==== Proof.K0Value.lean ====
import proofs.«424948_j65738769433295_3_alg».proof.Proof.Gen.KernelIdeal.Skeleton
import proofs.«424948_j65738769433295_3_alg».proof.Proof.Spec
import proofs.«424948_j65738769433295_3_alg».proof.Proof.LibMatmulAt
import Idealize.ShloMosaic.Lib.ValueLayout

noncomputable section

namespace Cert.K0Value

open Idealize.ShloMosaic Idealize.ShloMosaic.ValueIdx Cert.KernelIdeal Cert.KernelIdeal.Gen

theorem mm_apply (l : FVec Ideal S1x1024 .f32) (r : FVec Ideal S4096x1024 .f32) (j : Fin 4096) :
    matmul dot_S1x1024_S4096x1024_S1x4096_1_1_0_0_n_n none l r (constant (F := Ideal) S1x4096 .f32 0x00000000#32) (ix2 (0 : Fin 1) j)
      = ∑ k : Fin 1024, l (ix2 (0 : Fin 1) k) * r (ix2 j k) :=
  MatmulAt.matmul_transposedRhs_apply (M := 1) (K := 1024) (N := 4096) none l r 0 j

theorem slice_apply (o : Nat) (X : FVec Ideal S1x4096 .f32) (h : S1x4096.Slices ![0, o] S1x1024) (q : Fin 1024) (k : Fin 4096)
    (hk : k.val = o + q.val) : extractStridedSlice S1x1024 ![0, o] X h (ix2 (0 : Fin 1) q) = X (ix2 (0 : Fin 1) k) :=
  slice2_axis1_apply o X h 0 q k hk

theorem logistic_apply {s : Shape} (x : FVec Ideal s .f32) (i : s.Idx) : logistic x i = Ideal.logistic (x i) := rfl
theorem tanh_apply {s : Shape} (x : FVec Ideal s .f32) (i : s.Idx) : tanh x i = Ideal.tanh (x i) := rfl

variable (v0 : Vec Ideal S1x1x1024 .f32) (v2 v4 : Vec Ideal S1x1024 .f32) (v6 v8 : Vec Ideal S4096x1024 .f32)
  (v10 v14 : Vec Ideal S1x4096 .f32)

theorem pay1_apply (j : Fin 4096) :
    k0_pay1 (F := Ideal) v0 v2 v6 v8 v10 v14 (ix2 (0 : Fin 1) j)
      = Cert.Spec.gate (fun k => v0 (ix3 0 0 k)) (fun k => v2 (ix2 0 k)) (fun j k => v6 (ix2 j k)) (fun j k => v8 (ix2 j k))
          (fun j => v10 (ix2 0 j)) (fun j => v14 (ix2 0 j)) j := by
  unfold k0_pay1 Cert.Spec.gate
  simp only [addf_apply, shapeCast_self, mm_apply, shapeCast_1ab_ab_apply]

theorem pay2_apply (q : Fin 1024) :
    k0_pay2 (F := Ideal) v0 v2 v4 v6 v8 v10 v14 (ix2 (0 : Fin 1) q)
      = Cert.Spec.cNew (fun k => v0 (ix3 0 0 k)) (fun k => v2 (ix2 0 k)) (fun k => v4 (ix2 0 k)) (fun j k => v6 (ix2 j k))
          (fun j k => v8 (ix2 j k)) (fun j => v10 (ix2 0 j)) (fun j => v14 (ix2 0 j)) q := by
  unfold k0_pay2 Cert.Spec.cNew
  simp only [addf_apply, mulf_apply, logistic_apply, tanh_apply, shapeCast_self]
  rw [slice_apply 0 _ _ q (Cert.Spec.gi q) (Nat.zero_add _).symm, slice_apply 1024 _ _ q (Cert.Spec.gf q) rfl,
    slice_apply 2048 _ _ q (Cert.Spec.gg q) rfl, pay1_apply, pay1_apply, pay1_apply]

theorem pay3_apply (q : Fin 1024) :
    k0_pay3 (F := Ideal) v0 v2 v4 v6 v8 v10 v14 (ix2 (0 : Fin 1) q)
      = Cert.Spec.hNew (fun k => v0 (ix3 0 0 k)) (fun k => v2 (ix2 0 k)) (fun k => v4 (ix2 0 k)) (fun j k => v6 (ix2 j k))
          (fun j k => v8 (ix2 j k)) (fun j => v10 (ix2 0 j)) (fun j => v14 (ix2 0 j)) q := by
  unfold k0_pay3 Cert.Spec.hNew
  simp only [mulf_apply, logistic_apply, tanh_apply]
  rw [slice_apply 3072 _ _ q (Cert.Spec.go q) rfl, pay1_apply, pay2_apply]

end Cert.K0Value

end
-- ==== Proof.K1Value.lean ====
import proofs.«424948_j65738769433295_3_alg».proof.Proof.Gen.KernelIdeal.Skeleton
import proofs.«424948_j65738769433295_3_alg».proof.Proof.Spec
import proofs.«424948_j65738769433295_3_alg».proof.Proof.LibMatmulAt
import Idealize.ShloMosaic.Lib.ValueIdx
import Idealize.ShloMosaic.Lib.ValueLayout
import Idealize.ShloMosaic.Lib.Pipeline.Value
import Idealize.ShloMosaic.PureOps.Ideal.Laws

noncomputable section

namespace Cert.K1Value

open Idealize.ShloMosaic Idealize.ShloMosaic.ValueIdx Cert.KernelIdeal Cert.KernelIdeal.Gen

theorem colWord_eq (c kv p : ℕ) (hc : c < 2) (hkv : kv < 13) (hp : p < 2048) :
    IntOp.addi (Scalar.muli (Scalar.addi (Scalar.muli (BitVec.ofNat 32 c) 13#32) (BitVec.ofNat 32 kv)) 2048#32) (BitVec.ofNat 32 p)
      = BitVec.ofNat 32 ((c * 13 + kv) * 2048 + p) := by
  apply BitVec.eq_of_toNat_eq
  simp only [IntOp.addi, Scalar.muli, Scalar.addi, IntOp.muli, BitVec.toNat_add, BitVec.toNat_mul, BitVec.toNat_ofNat]
  omega

theorem slt_small (n : ℕ) (hn : n < 53248) :
    IntOp.cmpi .slt (BitVec.ofNat 32 n) 50257#32 = if n < 50257 then 1#1 else 0#1 := by
  have h1 : (BitVec.ofNat 32 n).toInt = (n : ℤ) := by
    rw [BitVec.toInt_eq_toNat_of_lt (by rw [BitVec.toNat_ofNat]; omega), BitVec.toNat_ofNat]
    congr 1; omega
  have h2 : (50257#32 : BitVec 32).toInt = 50257 := by decide
  show BitVec.ofBool ((BitVec.ofNat 32 n).slt 50257#32) = _
  rw [BitVec.slt, h1, h2]
  by_cases h : n < 50257
  · rw [if_pos h, decide_eq_true (by omega)]; rfl
  · rw [if_neg h, decide_eq_false (by omega)]; rfl

theorem iota_at (h : S1x2048.Iotas .tc 32 [1]) (p : Fin 2048) : iota .tc S1x2048 32 [1] h (ix2 0 p) = BitVec.ofNat 32 p.val :=
  iota_single_apply .tc S1x2048 32 1 h (ix2 0 p)

theorem dot_eq : dot_S1x1024_S2048x1024_S1x2048_1_1_0_0_n_n = DotDims.transposedRhs 1 1024 2048 := rfl

theorem negBig_eq : (Named.named (F := Ideal) κ "neg_big" (φ := .f32) 0xFF333332#32 : EReal) = ⊥ := rfl

theorem negInf_eq : Ideal.ofBits .f32 0xFF800000#32 = ⊥ := by simp [Ideal.ofBits, Ideal.ieee]

theorem pay7_apply (i : grid1.Coords) (v3 : Vec Ideal S1x1024 .f32) (v5 : Vec Ideal S2048x1024 .f32) (v8 : Vec Ideal S1x2048 .f32)
    (p : Fin 2048) :
    k1_pay7 (F := Ideal) i v3 v5 v8 (ix2 0 p)
      = if ((i 0).val * 13 + (i 1).val) * 2048 + p.val < 50257 then (∑ k : Fin 1024, v3 (ix2 0 k) * v5 (ix2 p k)) + v8 (ix2 0 p) else ⊥ := by
  unfold k1_pay7
  show Scalar.select (IntOp.cmpi .slt (IntOp.addi (Scalar.muli (Scalar.addi (Scalar.muli (BitVec.ofNat 32 (i 0).val) 13#32) (BitVec.ofNat 32 (i 1).val)) 2048#32) (iota .tc S1x2048 32 [1] iota_S1x2048_d1_w32 (ix2 0 p))) 50257#32)
      (FloatOps.matmul (F := Ideal) dot_S1x1024_S2048x1024_S1x2048_1_1_0_0_n_n none (shapeCast S1x1024 v3 shapeCasts_S1x1024_S1x1024) (shapeCast S2048x1024 v5 shapeCasts_S2048x1024_S2048x1024) (constant S1x2048 .f32 0#32) (ix2 0 p) + shapeCast S1x2048 v8 shapeCasts_S1x2048_S1x2048 (ix2 0 p))
      (Named.named κ "neg_big" 0xFF333332#32) = _
  have hc : (i 0).val < 2 := (i 0).isLt
  have hkv : (i 1).val < 13 := (i 1).isLt
  rw [iota_at, colWord_eq _ _ _ hc hkv p.isLt, slt_small _ (by have := p.isLt; omega), shapeCast_self, shapeCast_self, shapeCast_self, dot_eq,
    MatmulAt.matmul_transposedRhs_apply, negBig_eq]
  by_cases h : ((i 0).val * 13 + (i 1).val) * 2048 + p.val < 50257
  · rw [if_pos h, if_pos h, select_one]
  · rw [if_neg h, if_neg h, select_zero]

theorem lift_eq (h : S1x2048.Reduces [1] S1) (k : Fin 2048) : h.lift (ix1 (0 : Fin 1)) k = ix2 (0 : Fin 1) k :=
  funext fun a => Fin.ext (by match a with | ⟨0, _⟩ | ⟨1, _⟩ => rfl)

theorem rowMax_apply (src : FVec Ideal S1x2048 .f32) (h : S1x2048.Reduces [1] S1) (hφ : FKind.Formats .f32)
    (hacc : (0xFF800000#32 : BitVec 32) = 0xFF800000#32) (hc : S1.ShapeCasts S1x1) :
    shapeCast S1x1 (multiReduction .maximumf [1] S1 src 0xFF800000#32 h hφ hacc) hc (ix2 0 0)
      = Finset.univ.sup fun p : Fin 2048 => src (ix2 0 p) := by
  refine (shapeCast_a_1a_apply _ hc 0 0).trans ?_
  refine (Ideal.multiReduction_maximumf_single src 0xFF800000#32 h hφ hacc (ix1 0)).trans ?_
  show (Finset.univ : Finset (Fin 2048)).fold max (Ideal.ofBits .f32 0xFF800000#32) (fun k => src (h.lift (ix1 0) k)) = _
  rw [negInf_eq]
  exact Finset.fold_congr fun k _ => congrArg src (lift_eq h k)

theorem rowSum_apply (src : FVec Ideal S1x2048 .f32) (h : S1x2048.Reduces [1] S1) (hφ : FKind.Formats .f32)
    (hacc : (0x00000000#32 : BitVec 32) = 0x00000000#32) (hc : S1.ShapeCasts S1x1) :
    shapeCast S1x1 (multiReduction .add [1] S1 src 0x00000000#32 h hφ hacc) hc (ix2 0 0)
      = ∑ p : Fin 2048, src (ix2 0 p) := by
  refine (shapeCast_a_1a_apply _ hc 0 0).trans ?_
  refine (Ideal.multiReduction_add_single src 0x00000000#32 h hφ hacc (ix1 0)).trans ?_
  show ∑ k : Fin 2048, src (h.lift (ix1 0) k) = _
  simp only [lift_eq]

theorem spread_apply {α : Type} (x : S1x1.Idx → α) (h : S1x1.Broadcasts S1x2048) (p : Fin 2048) :
    broadcastTo S1x2048 x h (ix2 0 p) = x (ix2 0 0) :=
  broadcastTo_apply x h _ _ (fun a => by match a with | ⟨0, _⟩ | ⟨1, _⟩ => rfl)

theorem pay8_apply (i : grid1.Coords) (v3 : Vec Ideal S1x1024 .f32) (v5 : Vec Ideal S2048x1024 .f32) (v8 : Vec Ideal S1x2048 .f32)
    (v23 : Vec Ideal S1x1 .f32) :
    k1_pay8 (F := Ideal) i v3 v5 v8 v23 (ix2 0 0)
      = Cert.Spec.stepM (v23 (ix2 0 0)) (fun p => k1_pay7 (F := Ideal) i v3 v5 v8 (ix2 0 p)) := by
  unfold k1_pay8 Cert.Spec.stepM
  exact congrArg (max (v23 (ix2 0 0))) (rowMax_apply (k1_pay7 (F := Ideal) i v3 v5 v8) _ _ _ _)

theorem pay9_apply (i : grid1.Coords) (v3 : Vec Ideal S1x1024 .f32) (v5 : Vec Ideal S2048x1024 .f32) (v8 : Vec Ideal S1x2048 .f32)
    (v23 v30 : Vec Ideal S1x1 .f32) :
    k1_pay9 (F := Ideal) i v3 v5 v8 v23 v30 (ix2 0 0)
      = Cert.Spec.stepL (v23 (ix2 0 0)) (v30 (ix2 0 0)) (fun p => k1_pay7 (F := Ideal) i v3 v5 v8 (ix2 0 p)) := by
  unfold k1_pay9 Cert.Spec.stepL
  rw [← pay8_apply i v3 v5 v8 v23]
  refine congrArg (v30 (ix2 0 0) * Ideal.exp (v23 (ix2 0 0) - k1_pay8 (F := Ideal) i v3 v5 v8 v23 (ix2 0 0)) + ·) ?_
  refine (rowSum_apply _ _ _ _ _).trans ?_
  refine Finset.sum_congr rfl fun p _ => ?_
  show Ideal.exp (k1_pay7 (F := Ideal) i v3 v5 v8 (ix2 0 p) - broadcastTo S1x2048 (k1_pay8 (F := Ideal) i v3 v5 v8 v23) _ (ix2 0 p)) = _
  rw [spread_apply]

instance : Subsingleton S1x1.Idx :=
  ⟨fun a b => funext fun d => by
    match d with | ⟨0, _⟩ | ⟨1, _⟩ => exact Subsingleton.elim (α := Fin 1) _ _⟩

theorem pay1_eq (v : FVec Ideal S1x1 .f32) : k1_pay1 (F := Ideal) v = v := shapeCast_self v _

theorem pay2_eq (v : FVec Ideal S1x1 .f32) : k1_pay2 (F := Ideal) v = v := shapeCast_self v _

theorem pay3_apply (v : Vec Ideal S1x1 .f32) (lane : Fin 128) : k1_pay3 (F := Ideal) v (ix3 0 0 lane) = v (ix2 0 0) :=
  congrArg v (Subsingleton.elim _ _)

theorem pay4_apply (v : Vec Ideal S1x1 .f32) (lane : Fin 128) : k1_pay4 (F := Ideal) v (ix3 0 0 lane) = v (ix2 0 0) :=
  congrArg v (Subsingleton.elim _ _)

theorem pay5_apply : k1_pay5 (F := Ideal) (ix2 0 0) = ⊥ := by
  unfold k1_pay5
  rw [shapeCast_self]
  exact negInf_eq

theorem pay6_apply : k1_pay6 (F := Ideal) (ix2 0 0) = 0 := by
  unfold k1_pay6
  rw [shapeCast_self]
  exact Ideal.ofBits_zero_f32

end Cert.K1Value

end
-- ==== Proof.K1ValueB.lean ====
import proofs.«424948_j65738769433295_3_alg».proof.Proof.K1Value
import proofs.«424948_j65738769433295_3_alg».proof.Proof.K1Defs

noncomputable section

namespace Cert.K1Value

open Idealize.ShloMosaic Idealize.ShloMosaic.ValueIdx Idealize.ShloMosaic.TcCoe
open Cert.KernelIdeal Cert.KernelIdeal.Gen Cert.KernelIdeal.Hand

variable (V : (c : Dev nD) → (b : Ref sig .tc) → Buf (Elt Ideal) ((c : Thread nD τ).loc b)) (c : Dev nD)

abbrev harr : Vec Ideal S1x1024 .f32 := V c main_v6_0
abbrev warr : Vec Ideal S53248x1024 .f32 := V c main_v7
abbrev barr : Vec Ideal S1x53248 .f32 := V c main_v9

theorem coords_facts : ∀ t : Fin cfg1.N, (grid1.coords t 0).val = t.val / 13 ∧ (grid1.coords t 1).val = t.val % 13 :=
  (by decide +kernel : ∀ t : Fin grid1.N, _)

theorem idx_facts : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = t.val ∧ win1_2.index t (1 : Fin 2) = 0 :=
  (by decide +kernel : ∀ t : Fin grid1.N, _)

theorem hblk_apply (t : Fin cfg1.N) (k : Fin 1024) : iblk1 V c 0 t (ix2 0 k) = harr V c (ix2 0 k) := by
  have := idx_facts t
  refine congrArg (harr V c) (funext fun a => Fin.ext ?_)
  match a with
  | ⟨0, _⟩ => show win1_0.index t (0 : Fin 2) * 1 + 1 * 0 = 0; omega
  | ⟨1, _⟩ => show win1_0.index t (1 : Fin 2) * 1024 + 1 * k.val = k.val; omega

theorem wblk_apply (t : Fin cfg1.N) (p : Fin 2048) (k : Fin 1024) (hn : t.val * 2048 + p.val < 53248) :
    iblk1 V c 2 t (ix2 p k) = warr V c (ix2 ⟨t.val * 2048 + p.val, hn⟩ k) := by
  have := idx_facts t
  refine congrArg (warr V c) (funext fun a => Fin.ext ?_)
  match a with
  | ⟨0, _⟩ => show win1_2.index t (0 : Fin 2) * 2048 + 1 * p.val = t.val * 2048 + p.val; omega
  | ⟨1, _⟩ => show win1_2.index t (1 : Fin 2) * 1024 + 1 * k.val = k.val; omega

theorem bblk_apply (t : Fin cfg1.N) (p : Fin 2048) (hn : t.val * 2048 + p.val < 53248) :
    iblk1 V c 1 t (ix2 0 p) = barr V c (ix2 0 ⟨t.val * 2048 + p.val, hn⟩) := by
  have := idx_facts t
  refine congrArg (barr V c) (funext fun a => Fin.ext ?_)
  match a with
  | ⟨0, _⟩ => show win1_1.index t (0 : Fin 2) * 1 + 1 * 0 = 0; omega
  | ⟨1, _⟩ => show win1_1.index t (1 : Fin 2) * 2048 + 1 * p.val = t.val * 2048 + p.val; omega

variable (h' : Fin 1024 → EReal) (fcw : Fin 50257 → Fin 1024 → EReal) (fcb : Fin 50257 → EReal)

structure Entry : Prop where
  hH : ∀ k : Fin 1024, harr V c (ix2 0 k) = h' k
  hW : ∀ (j : Fin 50257) (k : Fin 1024), warr V c (ix2 (Fin.castLE (by decide) j) k) = fcw j k
  hB : ∀ j : Fin 50257, barr V c (ix2 0 (Fin.castLE (by decide) j)) = fcb j

variable {V c h' fcw fcb}

theorem Entry.hW' (E : Entry V c h' fcw fcb) (n : ℕ) (hn : n < 53248) (h : n < 50257) (k : Fin 1024) :
    warr V c (ix2 ⟨n, hn⟩ k) = fcw ⟨n, h⟩ k := E.hW ⟨n, h⟩ k

theorem Entry.hB' (E : Entry V c h' fcw fcb) (n : ℕ) (hn : n < 53248) (h : n < 50257) :
    barr V c (ix2 0 ⟨n, hn⟩) = fcb ⟨n, h⟩ := E.hB ⟨n, h⟩

theorem tileAt_apply (E : Entry V c h' fcw fcb) (t : Fin cfg1.N) (p : Fin 2048) :
    tileAt V c t (ix2 0 p) = Cert.Spec.tileOf (Cert.Spec.logit h' fcw fcb) t.val p := by
  obtain ⟨c0, c1⟩ := coords_facts t
  have ht : t.val < 26 := Nat.lt_of_lt_of_eq t.isLt N_1
  have hp := p.isLt
  unfold tileAt
  rw [pay7_apply, c0, c1, Nat.div_add_mod']
  unfold Cert.Spec.tileOf Cert.Spec.zpad
  by_cases h : t.val * 2048 + p.val < 50257
  · rw [if_pos h, dif_pos h]
    unfold Cert.Spec.logit
    rw [bblk_apply V c t p (by omega), E.hB' _ _ h]
    refine congrArg (· + fcb ⟨t.val * 2048 + p.val, h⟩) (Finset.sum_congr rfl fun k _ => ?_)
    rw [hblk_apply, E.hH, wblk_apply V c t p k (by omega), E.hW' _ _ h k]
  · rw [if_neg h, dif_neg h]

theorem tile_fun (E : Entry V c h' fcw fcb) (t : Fin cfg1.N) :
    (fun p : Fin 2048 => k1_pay7 (F := Ideal) (grid1.coords t) (iblk1 V c 0 t) (iblk1 V c 2 t) (iblk1 V c 1 t) (ix2 0 p))
      = Cert.Spec.tileOf (Cert.Spec.logit h' fcw fcb) t.val :=
  funext fun p => tileAt_apply E t p

theorem sc_apply (E : Entry V c h' fcw fcb) (c' : ℕ) (hc' : c' < 2) (n : ℕ) (hn : n ≤ 13) :
    (if n = 0 then k1_pay5 (F := Ideal) else scM V c (13 * c' + n)) (ix2 0 0) = Cert.Spec.accM (Cert.Spec.logit h' fcw fcb) c' n
      ∧ (if n = 0 then k1_pay6 (F := Ideal) else scL V c (13 * c' + n)) (ix2 0 0) = Cert.Spec.accL (Cert.Spec.logit h' fcw fcb) c' n := by
  induction n with
  | zero => exact ⟨pay5_apply, pay6_apply⟩
  | succ n ih =>
    obtain ⟨ihM, ihL⟩ := ih (by omega)
    have hv : (pt1 (13 * c' + n)).val = c' * 13 + n := by
      show (13 * c' + n) % 26 = _
      omega
    have hm : (13 * c' + n) % 13 = n := by omega
    constructor
    · show scM V c (13 * c' + n + 1) (ix2 0 0) = _
      rw [scM_succ, hm]; unfold mNext
      rw [pay2_eq, pay8_apply, tile_fun E, ihM, hv]
      rfl
    · show scL V c (13 * c' + n + 1) (ix2 0 0) = _
      rw [scL_succ, hm]; unfold lNext
      rw [pay1_eq, pay9_apply, tile_fun E, ihM, ihL, hv]
      rfl

theorem tileIdx_eq (k : ℕ) : tileIdx k = ix2 (0 : Fin 1) (⟨k % 2048, Nat.mod_lt _ (by decide)⟩ : Fin 2048) :=
  funext fun a => by match a with | ⟨0, _⟩ | ⟨1, _⟩ => rfl

theorem laneIdx_eq (lane : Fin 128) : laneIdx lane = ix3 (0 : Fin 1) (0 : Fin 1) lane :=
  funext fun a => by match a with | ⟨0, _⟩ | ⟨1, _⟩ | ⟨2, _⟩ => rfl

theorem logitsOut_apply (E : Entry V c h' fcw fcb) (j : Fin 53248) :
    (logitsOut V c : S1x53248.Idx → EReal) (ix2 0 j) = Cert.Spec.zpad (Cert.Spec.logit h' fcw fcb) j.val := by
  have hj := j.isLt
  show tileAt V c (pt1 (j.val / 2048)) (tileIdx j.val) = _
  rw [tileIdx_eq, tileAt_apply E]
  unfold Cert.Spec.tileOf
  refine congrArg (Cert.Spec.zpad (Cert.Spec.logit h' fcw fcb)) ?_
  show (j.val / 2048) % 26 * 2048 + j.val % 2048 = j.val
  omega

theorem mOut_apply (E : Entry V c h' fcw fcb) (c' : Fin 2) (lane : Fin 128) :
    (mOut V c : S2x1x128.Idx → EReal) (ix3 c' 0 lane) = Cert.Spec.accM (Cert.Spec.logit h' fcw fcb) c'.val 13 := by
  show k1_pay3 (F := Ideal) (scM V c (13 * c'.val + 13)) (laneIdx lane) = _
  rw [laneIdx_eq, pay3_apply]
  exact (sc_apply E c'.val c'.isLt 13 (le_refl _)).1

theorem lOut_apply (E : Entry V c h' fcw fcb) (c' : Fin 2) (lane : Fin 128) :
    (lOut V c : S2x1x128.Idx → EReal) (ix3 c' 0 lane) = Cert.Spec.accL (Cert.Spec.logit h' fcw fcb) c'.val 13 := by
  show k1_pay4 (F := Ideal) (scL V c (13 * c'.val + 13)) (laneIdx lane) = _
  rw [laneIdx_eq, pay4_apply]
  exact (sc_apply E c'.val c'.isLt 13 (le_refl _)).2

end Cert.K1Value
end
-- ==== Proof.EntryVals.lean ====
import proofs.«424948_j65738769433295_3_alg».proof.Proof.RunReads
import proofs.«424948_j65738769433295_3_alg».proof.Proof.K0Value
import proofs.«424948_j65738769433295_3_alg».proof.Proof.K1ValueB
import proofs.«424948_j65738769433295_3_alg».proof.Proof.Args
import Idealize.ShloMosaic.Lib.KernelVsHost
import Idealize.ShloMosaic.Lib.ValueLayout

noncomputable section

namespace Cert.KernelValue

open Idealize.ShloMosaic Idealize.ShloMosaic.ValueIdx Idealize.ShloMosaic.TcCoe
open Cert.KernelIdeal Cert.KernelIdeal.Gen Cert.KernelIdeal.Hand

variable (m : (ℓ : Loc nD τ sig) → Buf (Elt Ideal) ℓ)
variable (a : (p : Fin 2) → (pcfgs (F := Ideal) p).Adm)
variable (c : Dev nD) (x : Fin 50257)

abbrev argsOf : Cert.Args.Arrs :=
  ⟨m ((c : Thread nD τ).loc main_arg1), m ((c : Thread nD τ).loc main_arg2), m ((c : Thread nD τ).loc main_arg3),
   m ((c : Thread nD τ).loc main_arg4), m ((c : Thread nD τ).loc main_arg5), m ((c : Thread nD τ).loc main_arg6),
   m ((c : Thread nD τ).loc main_arg7), m ((c : Thread nD τ).loc main_arg8), m ((c : Thread nD τ).loc main_arg9)⟩

abbrev blkE : Vec Ideal S1x1x1024 .f32 := iblk0 (E0 m) a c 0 t0_0
abbrev blkH : Vec Ideal S1x1024 .f32 := iblk0 (E0 m) a c 1 t0_0
abbrev blkC : Vec Ideal S1x1024 .f32 := iblk0 (E0 m) a c 2 t0_0
abbrev blkWih : Vec Ideal S4096x1024 .f32 := iblk0 (E0 m) a c 3 t0_0
abbrev blkWhh : Vec Ideal S4096x1024 .f32 := iblk0 (E0 m) a c 4 t0_0
abbrev blkBih : Vec Ideal S1x4096 .f32 := iblk0 (E0 m) a c 5 t0_0
abbrev blkBhh : Vec Ideal S1x4096 .f32 := iblk0 (E0 m) a c 6 t0_0

theorem emb_read (X : S50257x1024.Idx → EReal) (h : S50257x1024.ShapeCasts S50257x1x1024) (r : Fin 50257) (k : Fin 1024) :
    shapeCast S50257x1x1024 X h (ix3 r (0 : Fin 1) k) = X (ix2 r k) :=
  shapeCast_apply X h _ _ (by
    rw [Shape.rowMajor_val_two, Shape.rowMajor_val_three]
    show r.val * 1024 + k.val = (r.val * 1 + 0) * 1024 + k.val
    omega)

theorem e_entry (hrow : row0 a = x.val) :
    (fun k : Fin 1024 => blkE m a c (ix3 0 0 k)) = Cert.Args.e (argsOf m c) x := by
  funext k
  show iblk0 (E0 m) a c 0 t0_0 (ix3 0 0 k) = (m ((c : Thread nD τ).loc main_arg3) : S50257x1024.Idx → EReal) (ix2 x k)
  rw [iblk0_0 (E0 m) a c t0_0 0 0 k, E0_main_v5]
  have hx : (⟨row0 a, row0_lt a⟩ : Fin 50257) = x := Fin.ext hrow
  rw [hx]
  exact emb_read _ _ x k

theorem h_entry : (fun k : Fin 1024 => blkH m a c (ix2 0 k)) = Cert.Args.h (argsOf m c) := by
  funext k
  show iblk0 (E0 m) a c 1 t0_0 (ix2 0 k) = (m ((c : Thread nD τ).loc main_arg1) : S1x1x1024.Idx → EReal) (ix3 0 0 k)
  rw [iblk0_1, E0_main_v1]
  exact shapeCast_1ab_ab_apply _ _ 0 k

theorem c_entry : (fun k : Fin 1024 => blkC m a c (ix2 0 k)) = Cert.Args.c (argsOf m c) := by
  funext k
  show iblk0 (E0 m) a c 2 t0_0 (ix2 0 k) = (m ((c : Thread nD τ).loc main_arg2) : S1x1x1024.Idx → EReal) (ix3 0 0 k)
  rw [iblk0_2, E0_main_v2]
  exact shapeCast_1ab_ab_apply _ _ 0 k

theorem wih_entry : (fun (j : Fin 4096) (k : Fin 1024) => blkWih m a c (ix2 j k)) = Cert.Args.wih (argsOf m c) := by
  funext j k
  show iblk0 (E0 m) a c 3 t0_0 (ix2 j k) = (m ((c : Thread nD τ).loc main_arg4) : S4096x1024.Idx → EReal) (ix2 j k)
  rw [iblk0_3, E0_arg m c main_arg4 (by decide)]

theorem whh_entry : (fun (j : Fin 4096) (k : Fin 1024) => blkWhh m a c (ix2 j k)) = Cert.Args.whh (argsOf m c) := by
  funext j k
  show iblk0 (E0 m) a c 4 t0_0 (ix2 j k) = (m ((c : Thread nD τ).loc main_arg5) : S4096x1024.Idx → EReal) (ix2 j k)
  rw [iblk0_4, E0_arg m c main_arg5 (by decide)]

theorem bih_entry : (fun j : Fin 4096 => blkBih m a c (ix2 0 j)) = Cert.Args.bih (argsOf m c) := by
  funext j
  show iblk0 (E0 m) a c 5 t0_0 (ix2 0 j) = (m ((c : Thread nD τ).loc main_arg6) : S4096.Idx → EReal) (ix1 j)
  rw [iblk0_5, E0_main_v3]
  exact shapeCast_a_1a_apply _ _ 0 j

theorem bhh_entry : (fun j : Fin 4096 => blkBhh m a c (ix2 0 j)) = Cert.Args.bhh (argsOf m c) := by
  funext j
  show iblk0 (E0 m) a c 6 t0_0 (ix2 0 j) = (m ((c : Thread nD τ).loc main_arg7) : S4096.Idx → EReal) (ix1 j)
  rw [iblk0_6, E0_main_v4]
  exact shapeCast_a_1a_apply _ _ 0 j

theorem hOut_entry (hrow : row0 a = x.val) (k : Fin 1024) :
    hOut (E0 m) a c (ix2 0 k) = Cert.Args.hOut (argsOf m c) x k := by
  have e : hOut (E0 m) a c = k0_pay3 (blkE m a c) (blkH m a c) (blkC m a c) (blkWih m a c) (blkWhh m a c) (blkBih m a c) (blkBhh m a c) :=
    hOut_eq (E0 m) a c
  rw [e]
  refine (Cert.K0Value.pay3_apply (blkE m a c) (blkH m a c) (blkC m a c) (blkWih m a c) (blkWhh m a c) (blkBih m a c) (blkBhh m a c) k).trans ?_
  rw [e_entry m a c x hrow, h_entry, c_entry, wih_entry, whh_entry, bih_entry, bhh_entry]
  rfl

theorem cOut_entry (hrow : row0 a = x.val) (k : Fin 1024) :
    cOut (E0 m) a c (ix2 0 k) = Cert.Args.cOut (argsOf m c) x k := by
  have e : cOut (E0 m) a c = k0_pay2 (blkE m a c) (blkH m a c) (blkC m a c) (blkWih m a c) (blkWhh m a c) (blkBih m a c) (blkBhh m a c) :=
    cOut_eq (E0 m) a c
  rw [e]
  refine (Cert.K0Value.pay2_apply (blkE m a c) (blkH m a c) (blkC m a c) (blkWih m a c) (blkWhh m a c) (blkBih m a c) (blkBhh m a c) k).trans ?_
  rw [e_entry m a c x hrow, h_entry, c_entry, wih_entry, whh_entry, bih_entry, bhh_entry]
  rfl

theorem entry1 (hrow : row0 a = x.val) :
    Cert.K1Value.Entry (E1 m a) c (Cert.Args.hOut (argsOf m c) x) (Cert.Args.fcw (argsOf m c)) (Cert.Args.fcb (argsOf m c)) where
  hH k := by
    show E1 m a c main_v6_0 (ix2 0 k) = _
    rw [E1_main_v6_0]
    exact hOut_entry m a c x hrow k
  hW j k := by
    show E1 m a c main_v7 (ix2 (Fin.castLE (by decide) j) k) = (m ((c : Thread nD τ).loc main_arg8) : S50257x1024.Idx → EReal) (ix2 j k)
    rw [E1_main_v7]
    exact pad_apply_of_inside _ _ _ _ _ _ _ _ (ix2 j k) (fun b => by
      match b with
      | ⟨0, _⟩ => show j.val = 0 + j.val * (0 + 1); omega
      | ⟨1, _⟩ => show k.val = 0 + k.val * (0 + 1); omega)
  hB j := by
    show E1 m a c main_v9 (ix2 0 (Fin.castLE (by decide) j)) = (m ((c : Thread nD τ).loc main_arg9) : S50257.Idx → EReal) (ix1 j)
    rw [E1_main_v9]
    refine (shapeCast_a_1a_apply _ _ 0 _).trans ?_
    exact pad_apply_of_inside _ _ _ _ _ _ _ _ (ix1 j) (fun b => by
      match b with
      | ⟨0, _⟩ => show j.val = 0 + j.val * (0 + 1); omega)

end Cert.KernelValue

end
-- ==== Proof.SpecLawA.lean ====
import proofs.«424948_j65738769433295_3_alg».proof.Proof.Spec
import Mathlib.Data.EReal.Basic
import Mathlib.Data.EReal.Operations
import Mathlib.Data.EReal.Inv
import Mathlib.Analysis.SpecialFunctions.Exp
import Mathlib.Analysis.SpecialFunctions.Log.Basic

noncomputable section

namespace Cert.Spec

open Idealize.ShloMosaic

theorem coe_sum {ι : Type*} (s : Finset ι) (f : ι → ℝ) :
    (∑ k ∈ s, (f k : EReal)) = ((∑ k ∈ s, f k : ℝ) : EReal) := by
  classical
  refine Finset.induction_on s ?_ ?_
  · simp
  · intro a s ha ih
    rw [Finset.sum_insert ha, Finset.sum_insert ha, ih, EReal.coe_add]

theorem exp_coe (r : ℝ) : Ideal.exp (r : EReal) = (Real.exp r : EReal) := rfl

theorem exp_bot : Ideal.exp ⊥ = 0 := rfl

theorem tanh_coe (r : ℝ) : Ideal.tanh (r : EReal) = (Real.tanh r : EReal) := rfl

theorem log_coe_pos {r : ℝ} (h : 0 < r) : Ideal.log (r : EReal) = (Real.log r : EReal) := by
  show (if r ≤ 0 then (⊥ : EReal) else (Real.log r : EReal)) = _
  rw [if_neg (not_le.mpr h)]

theorem logistic_coe (r : ℝ) : Ideal.logistic (r : EReal) = (((1 + Real.exp (-r))⁻¹ : ℝ) : EReal) := by
  have hpos : (0 : ℝ) < 1 + Real.exp (-r) := by positivity
  have hne : ((1 + Real.exp (-r) : ℝ) : EReal) ≠ 0 := by exact_mod_cast hpos.ne'
  unfold Ideal.logistic Ideal.div
  rw [← EReal.coe_neg, exp_coe, ← EReal.coe_one, ← EReal.coe_add, if_neg hne, ← EReal.coe_inv, ← EReal.coe_mul, one_mul]

def gateR (e h : Fin 1024 → ℝ) (wih whh : Fin 4096 → Fin 1024 → ℝ) (bih bhh : Fin 4096 → ℝ) (j : Fin 4096) : ℝ :=
  (∑ k : Fin 1024, e k * wih j k) + bih j + (∑ k : Fin 1024, h k * whh j k) + bhh j

def sigR (x : ℝ) : ℝ := (1 + Real.exp (-x))⁻¹

def cNewR (e h c : Fin 1024 → ℝ) (wih whh : Fin 4096 → Fin 1024 → ℝ) (bih bhh : Fin 4096 → ℝ) (q : Fin 1024) : ℝ :=
  sigR (gateR e h wih whh bih bhh (gf q)) * c q
    + sigR (gateR e h wih whh bih bhh (gi q)) * Real.tanh (gateR e h wih whh bih bhh (gg q))

def hNewR (e h c : Fin 1024 → ℝ) (wih whh : Fin 4096 → Fin 1024 → ℝ) (bih bhh : Fin 4096 → ℝ) (q : Fin 1024) : ℝ :=
  sigR (gateR e h wih whh bih bhh (go q)) * Real.tanh (cNewR e h c wih whh bih bhh q)

def logitR (hn : Fin 1024 → ℝ) (fcw : Fin 50257 → Fin 1024 → ℝ) (fcb : Fin 50257 → ℝ) (j : Fin 50257) : ℝ :=
  (∑ k : Fin 1024, hn k * fcw j k) + fcb j

theorem gate_coe (e h : Fin 1024 → ℝ) (wih whh : Fin 4096 → Fin 1024 → ℝ) (bih bhh : Fin 4096 → ℝ) (j : Fin 4096) :
    gate (fun k => (e k : EReal)) (fun k => (h k : EReal)) (fun j k => (wih j k : EReal)) (fun j k => (whh j k : EReal))
        (fun j => (bih j : EReal)) (fun j => (bhh j : EReal)) j
      = ((gateR e h wih whh bih bhh j : ℝ) : EReal) := by
  unfold gate gateR
  simp only [← EReal.coe_mul, coe_sum, ← EReal.coe_add]

theorem cNew_coe (e h c : Fin 1024 → ℝ) (wih whh : Fin 4096 → Fin 1024 → ℝ) (bih bhh : Fin 4096 → ℝ) (q : Fin 1024) :
    cNew (fun k => (e k : EReal)) (fun k => (h k : EReal)) (fun k => (c k : EReal)) (fun j k => (wih j k : EReal))
        (fun j k => (whh j k : EReal)) (fun j => (bih j : EReal)) (fun j => (bhh j : EReal)) q
      = ((cNewR e h c wih whh bih bhh q : ℝ) : EReal) := by
  unfold cNew cNewR sigR
  simp only [gate_coe, logistic_coe, tanh_coe, ← EReal.coe_mul, ← EReal.coe_add]

theorem hNew_coe (e h c : Fin 1024 → ℝ) (wih whh : Fin 4096 → Fin 1024 → ℝ) (bih bhh : Fin 4096 → ℝ) (q : Fin 1024) :
    hNew (fun k => (e k : EReal)) (fun k => (h k : EReal)) (fun k => (c k : EReal)) (fun j k => (wih j k : EReal))
        (fun j k => (whh j k : EReal)) (fun j => (bih j : EReal)) (fun j => (bhh j : EReal)) q
      = ((hNewR e h c wih whh bih bhh q : ℝ) : EReal) := by
  unfold hNew hNewR sigR
  simp only [gate_coe, cNew_coe, logistic_coe, tanh_coe, ← EReal.coe_mul]

theorem logit_coe (hn : Fin 1024 → ℝ) (fcw : Fin 50257 → Fin 1024 → ℝ) (fcb : Fin 50257 → ℝ) (j : Fin 50257) :
    logit (fun k => (hn k : EReal)) (fun j k => (fcw j k : EReal)) (fun j => (fcb j : EReal)) j
      = ((logitR hn fcw fcb j : ℝ) : EReal) := by
  unfold logit logitR
  simp only [← EReal.coe_mul, coe_sum, ← EReal.coe_add]

theorem hNew_real (e h c : Fin 1024 → ℝ) (wih whh : Fin 4096 → Fin 1024 → ℝ) (bih bhh : Fin 4096 → ℝ) (q : Fin 1024) :
    ∃ r : ℝ, hNew (fun k => (e k : EReal)) (fun k => (h k : EReal)) (fun k => (c k : EReal)) (fun j k => (wih j k : EReal))
        (fun j k => (whh j k : EReal)) (fun j => (bih j : EReal)) (fun j => (bhh j : EReal)) q = (r : EReal) :=
  ⟨_, hNew_coe e h c wih whh bih bhh q⟩

theorem logit_real (hn : Fin 1024 → ℝ) (fcw : Fin 50257 → Fin 1024 → ℝ) (fcb : Fin 50257 → ℝ) (j : Fin 50257) :
    ∃ r : ℝ, logit (fun k => (hn k : EReal)) (fun j k => (fcw j k : EReal)) (fun j => (fcb j : EReal)) j = (r : EReal) :=
  ⟨_, logit_coe hn fcw fcb j⟩

theorem hNew_real' (e h c : Fin 1024 → EReal) (wih whh : Fin 4096 → Fin 1024 → EReal) (bih bhh : Fin 4096 → EReal)
    (he : ∀ k, ∃ r : ℝ, e k = r) (hh : ∀ k, ∃ r : ℝ, h k = r) (hc : ∀ k, ∃ r : ℝ, c k = r)
    (hwih : ∀ j k, ∃ r : ℝ, wih j k = r) (hwhh : ∀ j k, ∃ r : ℝ, whh j k = r)
    (hbih : ∀ j, ∃ r : ℝ, bih j = r) (hbhh : ∀ j, ∃ r : ℝ, bhh j = r) (q : Fin 1024) :
    ∃ r : ℝ, hNew e h c wih whh bih bhh q = (r : EReal) := by
  choose e' he using he
  choose h' hh using hh
  choose c' hc using hc
  choose wih' hwih using hwih
  choose whh' hwhh using hwhh
  choose bih' hbih using hbih
  choose bhh' hbhh using hbhh
  obtain rfl : e = fun k => (e' k : EReal) := funext he
  obtain rfl : h = fun k => (h' k : EReal) := funext hh
  obtain rfl : c = fun k => (c' k : EReal) := funext hc
  obtain rfl : wih = fun j k => (wih' j k : EReal) := funext fun j => funext (hwih j)
  obtain rfl : whh = fun j k => (whh' j k : EReal) := funext fun j => funext (hwhh j)
  obtain rfl : bih = fun j => (bih' j : EReal) := funext hbih
  obtain rfl : bhh = fun j => (bhh' j : EReal) := funext hbhh
  exact hNew_real e' h' c' wih' whh' bih' bhh' q

theorem logit_real' (hn : Fin 1024 → EReal) (fcw : Fin 50257 → Fin 1024 → EReal) (fcb : Fin 50257 → EReal)
    (hhn : ∀ k, ∃ r : ℝ, hn k = r) (hfcw : ∀ j k, ∃ r : ℝ, fcw j k = r) (hfcb : ∀ j, ∃ r : ℝ, fcb j = r)
    (j : Fin 50257) : ∃ r : ℝ, logit hn fcw fcb j = (r : EReal) := by
  choose hn' hhn using hhn
  choose fcw' hfcw using hfcw
  choose fcb' hfcb using hfcb
  obtain rfl : hn = fun k => (hn' k : EReal) := funext hhn
  obtain rfl : fcw = fun j k => (fcw' j k : EReal) := funext fun j => funext (hfcw j)
  obtain rfl : fcb = fun j => (fcb' j : EReal) := funext hfcb
  exact logit_real hn' fcw' fcb' j

end Cert.Spec

end
-- ==== Proof.SpecLaw.lean ====
import proofs.«424948_j65738769433295_3_alg».proof.Proof.SpecLawA
import Mathlib.Data.Fintype.BigOperators
import Mathlib.Algebra.Order.BigOperators.Group.Finset

noncomputable section

namespace Cert.Spec

open Idealize.ShloMosaic

section
variable (z : Fin 50257 → ℝ)

def ez (M : ℝ) (j : ℕ) : ℝ := if h : j < 50257 then Real.exp (z ⟨j, h⟩ - M) else 0

def expSum (M : ℝ) : ℝ := ∑ k : Fin 50257, Real.exp (z k - M)

theorem exp_zpad_sub (M : ℝ) (j : ℕ) :
    Ideal.exp (zpad (fun k => ((z k : ℝ) : EReal)) j - (M : EReal)) = ((ez z M j : ℝ) : EReal) := by
  unfold zpad ez
  by_cases h : j < 50257
  · rw [dif_pos h, dif_pos h]
    show Ideal.exp (((z ⟨j, h⟩ : ℝ) : EReal) - (M : EReal)) = _
    rw [← EReal.coe_sub, exp_coe]
  · rw [dif_neg h, dif_neg h, EReal.bot_sub, exp_bot, EReal.coe_zero]

theorem ez_rescale (M M' : ℝ) (j : ℕ) : ez z M j * Real.exp (M - M') = ez z M' j := by
  unfold ez
  by_cases h : j < 50257
  · rw [dif_pos h, dif_pos h, ← Real.exp_add]
    congr 1
    ring
  · rw [dif_neg h, dif_neg h, zero_mul]

theorem sum_ez_rescale {ι : Type*} (s : Finset ι) (f : ι → ℕ) (M M' : ℝ) :
    (∑ j ∈ s, ez z M (f j)) * Real.exp (M - M') = ∑ j ∈ s, ez z M' (f j) := by
  rw [Finset.sum_mul]
  exact Finset.sum_congr rfl fun j _ => ez_rescale z M M' (f j)

theorem sum_exp_tile (g : ℕ) (M : ℝ) :
    (∑ i : Fin 2048, Ideal.exp (tileOf (fun k => ((z k : ℝ) : EReal)) g i - (M : EReal)))
      = ((∑ i ∈ Finset.range 2048, ez z M (g * 2048 + i) : ℝ) : EReal) := by
  rw [← Fin.sum_univ_eq_sum_range (fun i => ez z M (g * 2048 + i)) 2048, ← coe_sum]
  exact Finset.sum_congr rfl fun i _ => exp_zpad_sub z M (g * 2048 + i.val)

theorem sum_ez_all (M : ℝ) : ∑ j ∈ Finset.range 53248, ez z M j = expSum z M := by
  show ∑ j ∈ Finset.range (50257 + 2991), ez z M j = _
  rw [Finset.sum_range_add, ← Fin.sum_univ_eq_sum_range (fun j => ez z M j) 50257]
  have h0 : ∑ x ∈ Finset.range 2991, ez z M (50257 + x) = 0 :=
    Finset.sum_eq_zero fun x _ => by unfold ez; rw [dif_neg (by omega)]
  rw [h0, add_zero]
  refine Finset.sum_congr rfl fun k _ => ?_
  unfold ez
  rw [dif_pos k.isLt]

theorem expSum_pos (M : ℝ) : 0 < expSum z M :=
  Finset.sum_pos (fun k _ => Real.exp_pos _) ⟨⟨0, by norm_num⟩, Finset.mem_univ _⟩

theorem lse_shift (M M' : ℝ) : M + Real.log (expSum z M) = M' + Real.log (expSum z M') := by
  have h : expSum z M = expSum z M' * Real.exp (M' - M) := by
    unfold expSum
    rw [Finset.sum_mul]
    refine Finset.sum_congr rfl fun k _ => ?_
    rw [← Real.exp_add]
    congr 1
    ring
  rw [h, Real.log_mul (expSum_pos z M').ne' (Real.exp_pos _).ne', Real.log_exp]
  ring

theorem exists_coe {x : EReal} (h : x ≠ ⊤) (h' : x ≠ ⊥) : ∃ r : ℝ, x = (r : EReal) :=
  ⟨x.toReal, (EReal.coe_toReal h h').symm⟩

theorem zpad_ne_top (j : ℕ) : zpad (fun k => ((z k : ℝ) : EReal)) j ≠ ⊤ := by
  unfold zpad
  by_cases h : j < 50257
  · rw [dif_pos h]; exact EReal.coe_ne_top _
  · rw [dif_neg h]; exact bot_ne_top

theorem sup_tile_ne_top (g : ℕ) : Finset.univ.sup (tileOf (fun k => ((z k : ℝ) : EReal)) g) ≠ ⊤ := by
  apply ne_of_lt
  rw [Finset.sup_lt_iff bot_lt_top]
  intro i _
  exact lt_top_iff_ne_top.mpr (zpad_ne_top z _)

theorem stepM_real (M : ℝ) (g : ℕ) :
    ∃ M' : ℝ, stepM (M : EReal) (tileOf (fun k => ((z k : ℝ) : EReal)) g) = (M' : EReal) := by
  unfold stepM
  apply exists_coe
  · exact ne_of_lt (max_lt (EReal.coe_lt_top M) (lt_top_iff_ne_top.mpr (sup_tile_ne_top z g)))
  · exact ne_of_gt (lt_of_lt_of_le (EReal.bot_lt_coe M) (le_max_left _ _))

theorem stepM_bot_real (g : ℕ) (hg : g * 2048 < 50257) :
    ∃ M' : ℝ, stepM ⊥ (tileOf (fun k => ((z k : ℝ) : EReal)) g) = (M' : EReal) := by
  unfold stepM
  rw [max_eq_right bot_le]
  apply exists_coe (sup_tile_ne_top z g)
  have h0 : tileOf (fun k => ((z k : ℝ) : EReal)) g ⟨0, by norm_num⟩
      ≤ Finset.univ.sup (tileOf (fun k => ((z k : ℝ) : EReal)) g) := Finset.le_sup (Finset.mem_univ _)
  have e : tileOf (fun k => ((z k : ℝ) : EReal)) g ⟨0, by norm_num⟩ = ((z ⟨g * 2048, hg⟩ : ℝ) : EReal) := by
    show zpad (fun k => ((z k : ℝ) : EReal)) (g * 2048 + 0) = _
    rw [Nat.add_zero]
    unfold zpad
    rw [dif_pos hg]
  rw [e] at h0
  exact ne_of_gt (lt_of_lt_of_le (EReal.bot_lt_coe _) h0)

theorem step_real (M s : ℝ) (g : ℕ) :
    ∃ M' : ℝ, stepM (M : EReal) (tileOf (fun k => ((z k : ℝ) : EReal)) g) = (M' : EReal) ∧
      stepL (M : EReal) (s : EReal) (tileOf (fun k => ((z k : ℝ) : EReal)) g)
        = ((s * Real.exp (M - M') + ∑ i ∈ Finset.range 2048, ez z M' (g * 2048 + i) : ℝ) : EReal) := by
  obtain ⟨M', hM'⟩ := stepM_real z M g
  refine ⟨M', hM', ?_⟩
  unfold stepL
  rw [hM', sum_exp_tile, ← EReal.coe_sub, exp_coe, ← EReal.coe_mul, ← EReal.coe_add]

theorem step_bot (g : ℕ) (hg : g * 2048 < 50257) :
    ∃ M' : ℝ, stepM ⊥ (tileOf (fun k => ((z k : ℝ) : EReal)) g) = (M' : EReal) ∧
      stepL ⊥ 0 (tileOf (fun k => ((z k : ℝ) : EReal)) g)
        = ((∑ i ∈ Finset.range 2048, ez z M' (g * 2048 + i) : ℝ) : EReal) := by
  obtain ⟨M', hM'⟩ := stepM_bot_real z g hg
  refine ⟨M', hM', ?_⟩
  unfold stepL
  rw [hM', sum_exp_tile, zero_mul, zero_add]

theorem acc_inv (c : ℕ) (hc : c * 13 * 2048 < 50257) (n : ℕ) :
    ∃ M : ℝ, accM (fun k => ((z k : ℝ) : EReal)) c (n + 1) = (M : EReal) ∧
      accL (fun k => ((z k : ℝ) : EReal)) c (n + 1)
        = ((∑ j ∈ Finset.range ((n + 1) * 2048), ez z M (c * 13 * 2048 + j) : ℝ) : EReal) := by
  induction n with
  | zero =>
    obtain ⟨M', h1, h2⟩ := step_bot z (c * 13 + 0) (by simpa using hc)
    refine ⟨M', h1, ?_⟩
    show stepL ⊥ 0 (tileOf (fun k => ((z k : ℝ) : EReal)) (c * 13 + 0)) = _
    rw [h2]
    simp only [Nat.add_zero, Nat.zero_add, Nat.one_mul]
  | succ n ih =>
    obtain ⟨M, hM, hL⟩ := ih
    obtain ⟨M', h1, h2⟩ := step_real z M (∑ j ∈ Finset.range ((n + 1) * 2048), ez z M (c * 13 * 2048 + j)) (c * 13 + (n + 1))
    refine ⟨M', ?_, ?_⟩
    · show stepM (accM (fun k => ((z k : ℝ) : EReal)) c (n + 1)) (tileOf (fun k => ((z k : ℝ) : EReal)) (c * 13 + (n + 1))) = _
      rw [hM, h1]
    · show stepL (accM (fun k => ((z k : ℝ) : EReal)) c (n + 1)) (accL (fun k => ((z k : ℝ) : EReal)) c (n + 1))
          (tileOf (fun k => ((z k : ℝ) : EReal)) (c * 13 + (n + 1))) = _
      have e : (n + 1 + 1) * 2048 = (n + 1) * 2048 + 2048 := by ring
      have e2 : ∀ i : ℕ, (c * 13 + (n + 1)) * 2048 + i = c * 13 * 2048 + ((n + 1) * 2048 + i) := fun i => by ring
      rw [hM, hL, h2, sum_ez_rescale, e, Finset.sum_range_add]
      simp only [e2]

theorem lse_eq : ∃ Mx : ℝ, lse (fun k => ((z k : ℝ) : EReal)) = ((Mx + Real.log (expSum z Mx) : ℝ) : EReal) := by
  obtain ⟨M0, hM0, hL0⟩ := acc_inv z 0 (by norm_num) 12
  obtain ⟨M1, hM1, hL1⟩ := acc_inv z 1 (by norm_num) 12
  simp only [Nat.reduceAdd, Nat.reduceMul, Nat.zero_add] at hM0 hM1 hL0 hL1
  obtain ⟨Mx, hMx⟩ : ∃ Mx : ℝ, max (M0 : EReal) (M1 : EReal) = (Mx : EReal) := by
    rcases max_choice (M0 : EReal) (M1 : EReal) with h | h
    · exact ⟨M0, h⟩
    · exact ⟨M1, h⟩
  refine ⟨Mx, ?_⟩
  have hs : (∑ j ∈ Finset.range 26624, ez z Mx j)
      + (∑ j ∈ Finset.range 26624, ez z Mx (26624 + j)) = expSum z Mx := by
    rw [← sum_ez_all z Mx]
    show _ = ∑ j ∈ Finset.range (26624 + 26624), ez z Mx j
    rw [Finset.sum_range_add]
  unfold lse
  rw [hM0, hM1, hL0, hL1, hMx, ← EReal.coe_sub, ← EReal.coe_sub, exp_coe, exp_coe, ← EReal.coe_mul, ← EReal.coe_mul,
    ← EReal.coe_add, sum_ez_rescale, sum_ez_rescale, hs, log_coe_pos (expSum_pos z Mx), ← EReal.coe_add]

theorem zmax_real : ∃ Mz : ℝ, zmax (fun k => ((z k : ℝ) : EReal)) = (Mz : EReal) := by
  unfold zmax
  apply exists_coe
  · apply ne_of_lt
    rw [Finset.sup_lt_iff bot_lt_top]
    intro k _
    exact EReal.coe_lt_top _
  · exact ne_of_gt (lt_of_lt_of_le (EReal.bot_lt_coe (z ⟨0, by norm_num⟩))
      (Finset.le_sup (f := fun k => ((z k : ℝ) : EReal)) (Finset.mem_univ _)))

end

theorem online_softmax (z : Fin 50257 → ℝ) (j : Fin 50257) :
    ((z j : ℝ) : EReal) - lse (fun k => ((z k : ℝ) : EReal)) = logSoftmax (fun k => ((z k : ℝ) : EReal)) j := by
  obtain ⟨Mx, hx⟩ := lse_eq z
  obtain ⟨Mz, hz⟩ := zmax_real z
  have hsum : (∑ k : Fin 50257, Ideal.exp (((z k : ℝ) : EReal) - (Mz : EReal))) = ((expSum z Mz : ℝ) : EReal) := by
    unfold expSum
    rw [← coe_sum]
    exact Finset.sum_congr rfl fun k _ => by rw [← EReal.coe_sub, exp_coe]
  simp only [logSoftmax]
  rw [hx, hz, hsum, log_coe_pos (expSum_pos z Mz), ← EReal.coe_sub, ← EReal.coe_sub, ← EReal.coe_sub, lse_shift z Mx Mz]
  rw [EReal.coe_eq_coe_iff]
  ring

theorem online_softmax' (z : Fin 50257 → EReal) (hz : ∀ k, ∃ r : ℝ, z k = r) (j : Fin 50257) :
    z j - lse z = logSoftmax z j := by
  choose z' hz using hz
  obtain rfl : z = fun k => ((z' k : ℝ) : EReal) := funext hz
  exact online_softmax z' j

end Cert.Spec

end
-- ==== Proof.TailValue.lean ====
import proofs.«424948_j65738769433295_3_alg».proof.Proof.Gen.KernelIdeal.Launch
import proofs.«424948_j65738769433295_3_alg».proof.Proof.Args
import proofs.«424948_j65738769433295_3_alg».proof.Proof.SpecLaw
import Idealize.ShloMosaic.Lib.StableHlo.Run
import Idealize.ShloMosaic.Lib.IdealHost
import Idealize.ShloMosaic.Lib.ValueLayout

noncomputable section

namespace Cert.TailValue

open Cert.KernelIdeal Cert.KernelIdeal.Gen Idealize.ShloMosaic Idealize.ShloMosaic.TcCoe Idealize.SL.Sem
open Idealize.ShloMosaic.StableHlo Idealize.ShloMosaic.ValueIdx

section Generic

variable {F : FTy → Type} [FloatOps F] [Named F] (W : Valuation τ sig (Elt F))

def m0T : (⟨S_, .f32⟩ : BufTy).Contents (Elt F) :=
  shapeCast S_ (extractStridedSlice S1x1x1 ![0, 0, 0] (W (Proc.devRef .tc main_v10_1)) slices_S2x1x128_S1x1x1_0_0_0) shapeCasts_S1x1x1_S_
def m1T : (⟨S_, .f32⟩ : BufTy).Contents (Elt F) :=
  shapeCast S_ (extractStridedSlice S1x1x1 ![1, 0, 0] (W (Proc.devRef .tc main_v10_1)) slices_S2x1x128_S1x1x1_1_0_0) shapeCasts_S1x1x1_S_
def l0T : (⟨S_, .f32⟩ : BufTy).Contents (Elt F) :=
  shapeCast S_ (extractStridedSlice S1x1x1 ![0, 0, 0] (W (Proc.devRef .tc main_v10_2)) slices_S2x1x128_S1x1x1_0_0_0) shapeCasts_S1x1x1_S_
def l1T : (⟨S_, .f32⟩ : BufTy).Contents (Elt F) :=
  shapeCast S_ (extractStridedSlice S1x1x1 ![1, 0, 0] (W (Proc.devRef .tc main_v10_2)) slices_S2x1x128_S1x1x1_1_0_0) shapeCasts_S1x1x1_S_

def lseT : (⟨S_, .f32⟩ : BufTy).Contents (Elt F) :=
  addf (maximumf (m0T W) (m1T W))
    (Host.log (addf (mulf (l0T W) (Host.exp (subf (m0T W) (maximumf (m0T W) (m1T W)))))
      (mulf (l1T W) (Host.exp (subf (m1T W) (maximumf (m0T W) (m1T W)))))))

def v31T : (⟨S1x50257, .f32⟩ : BufTy).Contents (Elt F) :=
  extractStridedSlice S1x50257 ![0, 0]
    (subf (W (Proc.devRef .tc main_v10_0)) (broadcastInDim S1x53248 ![] bcast_S_S1x53248 (lseT W)))
    slices_S1x53248_S1x50257_0_0

set_option maxHeartbeats 2000000 in
theorem after_v31 : after (hostOps2 (F := F)) W (Proc.devRef .tc main_v31) = v31T W := by
  unfold v31T lseT m0T m1T l0T l1T
  after_results
  rfl

theorem after_v32 : after (hostOps2 (F := F)) W (Proc.devRef .tc main_v32)
    = (shapeCast S1x1x1024 (W (Proc.devRef .tc main_v6_0)) shapeCasts_S1x1024_S1x1x1024 : (⟨S1x1x1024, .f32⟩ : BufTy).Contents (Elt F)) := by
  after_results
  rfl

theorem after_v33 : after (hostOps2 (F := F)) W (Proc.devRef .tc main_v33)
    = (shapeCast S1x1x1024 (W (Proc.devRef .tc main_v6_1)) shapeCasts_S1x1024_S1x1x1024 : (⟨S1x1x1024, .f32⟩ : BufTy).Contents (Elt F)) := by
  after_results
  rfl

end Generic

theorem scalar_read {α : Type} (c : ℕ) (hc : c < 2) (X : S2x1x128.Idx → α) (h : S2x1x128.Slices ![c, 0, 0] S1x1x1)
    (h' : S1x1x1.ShapeCasts S_) :
    shapeCast S_ (extractStridedSlice S1x1x1 ![c, 0, 0] X h) h' ix0 = X (ix3 (⟨c, hc⟩ : Fin 2) (0 : Fin 1) (0 : Fin 128)) := by
  refine (shapeCast_apply _ h' ix0 (ix3 (0 : Fin 1) (0 : Fin 1) (0 : Fin 1)) ?_).trans ?_
  · rw [Shape.rowMajor_val_three]
    have h1 : S_.numel = 1 := by decide
    have h2 := (S_.rowMajor ix0).isLt
    show (0 * 1 + 0) * 1 + 0 = _
    omega
  · exact extractStridedSlice_apply _ X h _ _ (fun a => by
      match a with
      | ⟨0, _⟩ => exact (Nat.add_zero c).symm
      | ⟨1, _⟩ => rfl
      | ⟨2, _⟩ => rfl)

theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl

section AtIdeal

variable (W : Valuation τ sig (Elt Ideal))

abbrev m0 : EReal := (W (Proc.devRef .tc main_v10_1) : S2x1x128.Idx → EReal) (ix3 (0 : Fin 2) (0 : Fin 1) (0 : Fin 128))
abbrev m1 : EReal := (W (Proc.devRef .tc main_v10_1) : S2x1x128.Idx → EReal) (ix3 (1 : Fin 2) (0 : Fin 1) (0 : Fin 128))
abbrev l0 : EReal := (W (Proc.devRef .tc main_v10_2) : S2x1x128.Idx → EReal) (ix3 (0 : Fin 2) (0 : Fin 1) (0 : Fin 128))
abbrev l1 : EReal := (W (Proc.devRef .tc main_v10_2) : S2x1x128.Idx → EReal) (ix3 (1 : Fin 2) (0 : Fin 1) (0 : Fin 128))

abbrev logitAt (j : Fin 53248) : EReal := (W (Proc.devRef .tc main_v10_0) : S1x53248.Idx → EReal) (ix2 (0 : Fin 1) j)
abbrev hAt (k : Fin 1024) : EReal := (W (Proc.devRef .tc main_v6_0) : S1x1024.Idx → EReal) (ix2 (0 : Fin 1) k)
abbrev cAt (k : Fin 1024) : EReal := (W (Proc.devRef .tc main_v6_1) : S1x1024.Idx → EReal) (ix2 (0 : Fin 1) k)

abbrev mAt (c' : Fin 2) (lane : Fin 128) : EReal := (W (Proc.devRef .tc main_v10_1) : S2x1x128.Idx → EReal) (ix3 c' (0 : Fin 1) lane)
abbrev lAt (c' : Fin 2) (lane : Fin 128) : EReal := (W (Proc.devRef .tc main_v10_2) : S2x1x128.Idx → EReal) (ix3 c' (0 : Fin 1) lane)

abbrev out31 : S1x50257.Idx → EReal := after (hostOps2 (F := Ideal)) W (Proc.devRef .tc main_v31)
abbrev out32 : S1x1x1024.Idx → EReal := after (hostOps2 (F := Ideal)) W (Proc.devRef .tc main_v32)
abbrev out33 : S1x1x1024.Idx → EReal := after (hostOps2 (F := Ideal)) W (Proc.devRef .tc main_v33)

theorem m0T_apply : (m0T W : S_.Idx → EReal) ix0 = m0 W := scalar_read 0 (by norm_num) _ _ _
theorem m1T_apply : (m1T W : S_.Idx → EReal) ix0 = m1 W := scalar_read 1 (by norm_num) _ _ _
theorem l0T_apply : (l0T W : S_.Idx → EReal) ix0 = l0 W := scalar_read 0 (by norm_num) _ _ _
theorem l1T_apply : (l1T W : S_.Idx → EReal) ix0 = l1 W := scalar_read 1 (by norm_num) _ _ _

theorem lseT_apply : (lseT W : S_.Idx → EReal) ix0
    = max (m0 W) (m1 W) + Ideal.log (l0 W * Ideal.exp (m0 W - max (m0 W) (m1 W)) + l1 W * Ideal.exp (m1 W - max (m0 W) (m1 W))) := by
  unfold lseT
  rw [addf_apply, hostLog_apply, addf_apply, mulf_apply, mulf_apply, hostExp_apply, hostExp_apply, subf_apply, subf_apply,
    maximumf_apply, m0T_apply, m1T_apply, l0T_apply, l1T_apply]

theorem tail_v31 (j : Fin 50257) :
    out31 W (ix2 (0 : Fin 1) j)
      = logitAt W (⟨j.val, lt_trans j.isLt (by norm_num)⟩ : Fin 53248)
        - (max (m0 W) (m1 W) + Ideal.log (l0 W * Ideal.exp (m0 W - max (m0 W) (m1 W)) + l1 W * Ideal.exp (m1 W - max (m0 W) (m1 W)))) := by
  show (after (hostOps2 (F := Ideal)) W (Proc.devRef .tc main_v31) : S1x50257.Idx → EReal) _ = _
  rw [after_v31]
  unfold v31T
  rw [slice2_axis1_apply 0 _ _ (0 : Fin 1) j (⟨j.val, lt_trans j.isLt (by norm_num)⟩ : Fin 53248) (Nat.zero_add _).symm,
    subf_apply, broadcastInDim_scalar_apply, lseT_apply]

theorem tail_v32 (k : Fin 1024) : out32 W (ix3 (0 : Fin 1) (0 : Fin 1) k) = hAt W k := by
  show (after (hostOps2 (F := Ideal)) W (Proc.devRef .tc main_v32) : S1x1x1024.Idx → EReal) _ = _
  rw [after_v32]
  exact shapeCast_ab_1ab_apply _ _ _ _ _

theorem tail_v33 (k : Fin 1024) : out33 W (ix3 (0 : Fin 1) (0 : Fin 1) k) = cAt W k := by
  show (after (hostOps2 (F := Ideal)) W (Proc.devRef .tc main_v33) : S1x1x1024.Idx → EReal) _ = _
  rw [after_v33]
  exact shapeCast_ab_1ab_apply _ _ _ _ _

theorem tail_results (A : Cert.Args.Arrs) (x : Fin 50257) (hA : Cert.Args.Real A)
    (hL : ∀ j : Fin 53248, logitAt W j = Cert.Spec.zpad (Cert.Args.z A x) j.val)
    (hM : ∀ (c' : Fin 2) (lane : Fin 128), mAt W c' lane = Cert.Spec.accM (Cert.Args.z A x) c'.val 13)
    (hLo : ∀ (c' : Fin 2) (lane : Fin 128), lAt W c' lane = Cert.Spec.accL (Cert.Args.z A x) c'.val 13)
    (hH : ∀ k : Fin 1024, hAt W k = Cert.Args.hOut A x k)
    (hC : ∀ k : Fin 1024, cAt W k = Cert.Args.cOut A x k) :
    out31 W = Cert.Args.res0 A x ∧ out32 W = Cert.Args.res1 A x ∧ out33 W = Cert.Args.res2 A x := by
  obtain ⟨hhid, hcell, hemb, hwih, hwhh, hbih, hbhh, hfcw, hfcb⟩ := hA
  have hz : ∀ k, ∃ r : ℝ, Cert.Args.z A x k = r := fun k =>
    Cert.Spec.logit_real' _ _ _
      (fun q => Cert.Spec.hNew_real' _ _ _ _ _ _ _ (fun k => hemb _) (fun k => hhid _) (fun k => hcell _)
        (fun j k => hwih _) (fun j k => hwhh _) (fun j => hbih _) (fun j => hbhh _) q)
      (fun j k => hfcw _) (fun j => hfcb _) k
  refine ⟨?_, ?_, ?_⟩
  · funext i
    obtain ⟨a, j, rfl⟩ : ∃ (a : Fin 1) (j : Fin 50257), i = ix2 a j := ⟨i 0, i 1, eq_ix2 i⟩
    obtain rfl : a = 0 := Subsingleton.elim _ _
    have e0 : m0 W = Cert.Spec.accM (Cert.Args.z A x) 0 13 := hM 0 0
    have e1 : m1 W = Cert.Spec.accM (Cert.Args.z A x) 1 13 := hM 1 0
    have f0 : l0 W = Cert.Spec.accL (Cert.Args.z A x) 0 13 := hLo 0 0
    have f1 : l1 W = Cert.Spec.accL (Cert.Args.z A x) 1 13 := hLo 1 0
    have hp : Cert.Spec.zpad (Cert.Args.z A x) j.val = Cert.Args.z A x j := by
      unfold Cert.Spec.zpad
      rw [dif_pos j.isLt]
    rw [tail_v31 W j, hL, e0, e1, f0, f1, hp]
    exact Cert.Spec.online_softmax' (Cert.Args.z A x) hz j
  · funext i
    obtain ⟨a, b, k, rfl⟩ : ∃ (a : Fin 1) (b : Fin 1) (k : Fin 1024), i = ix3 a b k := ⟨i 0, i 1, i 2, eq_ix3 i⟩
    obtain rfl : a = 0 := Subsingleton.elim _ _
    obtain rfl : b = 0 := Subsingleton.elim _ _
    rw [tail_v32 W k, hH]
    rfl
  · funext i
    obtain ⟨a, b, k, rfl⟩ : ∃ (a : Fin 1) (b : Fin 1) (k : Fin 1024), i = ix3 a b k := ⟨i 0, i 1, i 2, eq_ix3 i⟩
    obtain rfl : a = 0 := Subsingleton.elim _ _
    obtain rfl : b = 0 := Subsingleton.elim _ _
    rw [tail_v33 W k, hC]
    rfl

end AtIdeal

end Cert.TailValue

end
-- ==== Proof.KernelValue.lean ====
import proofs.«424948_j65738769433295_3_alg».proof.Proof.EntryVals
import proofs.«424948_j65738769433295_3_alg».proof.Proof.TailValue

noncomputable section

namespace Cert.KernelValue

open Idealize.ShloMosaic Idealize.ShloMosaic.ValueIdx Idealize.ShloMosaic.TcCoe
open Cert.KernelIdeal Cert.KernelIdeal.Gen Cert.KernelIdeal.Hand

variable (m : (ℓ : Loc nD τ sig) → Buf (Elt Ideal) ℓ)
variable (a : (p : Fin 2) → (pcfgs (F := Ideal) p).Adm)
variable (c : Dev nD) (x : Fin 50257)

theorem kernel_results (hrow : row0 a = x.val) (hA : Cert.Args.Real (argsOf m c)) :
    (Wfin m a c (Proc.devRef .tc main_v31) : S1x50257.Idx → EReal) = Cert.Args.res0 (argsOf m c) x
      ∧ (Wfin m a c (Proc.devRef .tc main_v32) : S1x1x1024.Idx → EReal) = Cert.Args.res1 (argsOf m c) x
      ∧ (Wfin m a c (Proc.devRef .tc main_v33) : S1x1x1024.Idx → EReal) = Cert.Args.res2 (argsOf m c) x := by
  have E := entry1 m a c x hrow
  exact Cert.TailValue.tail_results (W10 m a c) (argsOf m c) x hA
    (fun j => by
      show (W10 m a c (Proc.devRef .tc main_v10_0) : S1x53248.Idx → EReal) (ix2 0 j) = _
      rw [W10_main_v10_0]
      exact Cert.K1Value.logitsOut_apply E j)
    (fun c' lane => by
      show (W10 m a c (Proc.devRef .tc main_v10_1) : S2x1x128.Idx → EReal) (ix3 c' 0 lane) = _
      rw [W10_main_v10_1]
      exact Cert.K1Value.mOut_apply E c' lane)
    (fun c' lane => by
      show (W10 m a c (Proc.devRef .tc main_v10_2) : S2x1x128.Idx → EReal) (ix3 c' 0 lane) = _
      rw [W10_main_v10_2]
      exact Cert.K1Value.lOut_apply E c' lane)
    (fun k => by
      show (W10 m a c (Proc.devRef .tc main_v6_0) : S1x1024.Idx → EReal) (ix2 0 k) = _
      rw [W10_main_v6_0]
      exact hOut_entry m a c x hrow k)
    (fun k => by
      show (W10 m a c (Proc.devRef .tc main_v6_1) : S1x1024.Idx → EReal) (ix2 0 k) = _
      rw [W10_main_v6_1]
      exact cOut_entry m a c x hrow k)

end Cert.KernelValue

end
-- ==== Proof.RefImports.lean ====
import proofs.«424948_j65738769433295_3_alg».proof.Proof.RefRun
import proofs.«424948_j65738769433295_3_alg».proof.Proof.RefRead
-- ==== Proof.LibSeq.lean ====
import Idealize.ShloMosaic.Lib.StableHlo.Run

namespace Cert.LibSeq

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem forall_append {p : HloOp τ sig Val → Prop} {l₁ l₂ : List (HloOp τ sig Val)}
    (h₁ : l₁.Forall p) (h₂ : l₂.Forall p) : (l₁ ++ l₂).Forall p :=
  List.forall_append.mpr ⟨h₁, h₂⟩

theorem nary3_result {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

theorem nary3_result' {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

macro "after_results_nary3" : tactic =>
  `(tactic| (simp (disch := decide) only [Cert.LibSeq.after_append, Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.reshape_result', Cert.LibSeq.nary3_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.reshape_result_ne', Idealize.ShloMosaic.StableHlo.nary_result_ne']))

end Cert.LibSeq
-- ==== Proof.RefRunHandDefs.lean ====
import proofs.«424948_j65738769433295_3_alg».proof.Proof.RefImports
import proofs.«424948_j65738769433295_3_alg».proof.Proof.LibSeq

noncomputable section

namespace Cert.RefRunHand

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The contents of a float, and of an integer, buffer of shape `S`. -/
abbrev Cf (F : FTy → Type) (S : Shape) : Type := (⟨S, .f32⟩ : BufTy).Contents (Elt F)
abbrev Ci (F : FTy → Type) (S : Shape) : Type := (⟨S, .i32⟩ : BufTy).Contents (Elt F)

abbrev c1 : List (HloOp τ sig (Elt F)) := ops.take 9
abbrev c2 : List (HloOp τ sig (Elt F)) := (ops.drop 9).take 11
abbrev c3 : List (HloOp τ sig (Elt F)) := (ops.drop 20).take 12
abbrev c4 : List (HloOp τ sig (Elt F)) := (ops.drop 32).take 9
abbrev c5 : List (HloOp τ sig (Elt F)) := (ops.drop 41).take 8
abbrev c6 : List (HloOp τ sig (Elt F)) := (ops.drop 49).take 9
abbrev c7 : List (HloOp τ sig (Elt F)) := (ops.drop 58).take 9
abbrev c8 : List (HloOp τ sig (Elt F)) := ops.drop 67

theorem ops_eq : (ops : List (HloOp τ sig (Elt F))) = c1 ++ c2 ++ c3 ++ c4 ++ c5 ++ c6 ++ c7 ++ c8 := rfl

theorem after_ops_eq (V : Valuation τ sig (Elt F)) :
    after ops V = after c8 (after c7 (after c6 (after c5 (after c4 (after c3 (after c2 (after c1 V))))))) := by
  rw [ops_eq]
  simp only [Cert.LibSeq.after_append]

abbrev c1_W : List (Ref sig .tc) := [main_c, main_v0, main_v1, main_c_0, main_v2, main_v3, main_v4, main_v5, main_v6]
abbrev c2_W : List (Ref sig .tc) := [main_v7, main_v8, main_v9, main_v10, main_v11, main_v12, main_v13, main_v14, main_v15, main_v16, main_v17]
abbrev c3_W : List (Ref sig .tc) := [main_v18, main_v19, main_v20, main_v21, main_v22, main_v23, main_cst, main_v24, main_v25, main_cst_1, main_v26, main_v27]
abbrev c4_W : List (Ref sig .tc) := [main_v28, main_v29, main_cst_2, main_v30, main_v31, main_cst_3, main_v32, main_v33, main_v34]
abbrev c5_W : List (Ref sig .tc) := [main_v35, main_v36, main_cst_4, main_v37, main_v38, main_cst_5, main_v39, main_v40]
abbrev c6_W : List (Ref sig .tc) := [main_v41, main_v42, main_v43, main_v44, main_v45, main_v46, main_v47, main_v48, main_v49]
abbrev c7_W : List (Ref sig .tc) := [main_call0_cst, main_call0_v0, main_call0_cst_0, main_call0_v1, main_call0_v2, main_call0_v3, main_call0_v4, main_call0_v5, main_call0_v6]
abbrev c8_W : List (Ref sig .tc) := [main_call0_cst_1, main_call0_v7, main_call0_v8, main_call0_v9, main_call0_v10, main_v50, main_v51, main_v52]

theorem c1_writes : (c1 : List (HloOp τ sig (Elt F))).Forall fun op => op.writes ⊆ (c1_W.map (Proc.devRef (τ := τ) .tc)).toFinset := by
  simp only [c1, ops, List.take_succ_cons, List.take_zero, List.drop_succ_cons, List.drop_zero, List.Forall]
  repeat' constructor
  all_goals (simp only [nullary_writes, unary_writes, binary_writes, ternary_writes, reshape_writes, Finset.singleton_subset_iff, List.mem_toFinset]; exact List.mem_map_of_mem (by decide))

theorem frame1 (W : Valuation τ sig (Elt F)) {r : Ref sig .tc} (hr : r ∉ c1_W) :
    after c1 W (Proc.devRef .tc r) = W (Proc.devRef .tc r) :=
  after_of_writes_sub c1 W c1_writes hr

theorem c2_writes : (c2 : List (HloOp τ sig (Elt F))).Forall fun op => op.writes ⊆ (c2_W.map (Proc.devRef (τ := τ) .tc)).toFinset := by
  simp only [c2, ops, List.take_succ_cons, List.take_zero, List.drop_succ_cons, List.drop_zero, List.Forall]
  repeat' constructor
  all_goals (simp only [nullary_writes, unary_writes, binary_writes, ternary_writes, reshape_writes, Finset.singleton_subset_iff, List.mem_toFinset]; exact List.mem_map_of_mem (by decide))

theorem frame2 (W : Valuation τ sig (Elt F)) {r : Ref sig .tc} (hr : r ∉ c2_W) :
    after c2 W (Proc.devRef .tc r) = W (Proc.devRef .tc r) :=
  after_of_writes_sub c2 W c2_writes hr

theorem c3_writes : (c3 : List (HloOp τ sig (Elt F))).Forall fun op => op.writes ⊆ (c3_W.map (Proc.devRef (τ := τ) .tc)).toFinset := by
  simp only [c3, ops, List.take_succ_cons, List.take_zero, List.drop_succ_cons, List.drop_zero, List.Forall]
  repeat' constructor
  all_goals (simp only [nullary_writes, unary_writes, binary_writes, ternary_writes, reshape_writes, Finset.singleton_subset_iff, List.mem_toFinset]; exact List.mem_map_of_mem (by decide))

theorem frame3 (W : Valuation τ sig (Elt F)) {r : Ref sig .tc} (hr : r ∉ c3_W) :
    after c3 W (Proc.devRef .tc r) = W (Proc.devRef .tc r) :=
  after_of_writes_sub c3 W c3_writes hr

theorem c4_writes : (c4 : List (HloOp τ sig (Elt F))).Forall fun op => op.writes ⊆ (c4_W.map (Proc.devRef (τ := τ) .tc)).toFinset := by
  simp only [c4, ops, List.take_succ_cons, List.take_zero, List.drop_succ_cons, List.drop_zero, List.Forall]
  repeat' constructor
  all_goals (simp only [nullary_writes, unary_writes, binary_writes, ternary_writes, reshape_writes, Finset.singleton_subset_iff, List.mem_toFinset]; exact List.mem_map_of_mem (by decide))

theorem frame4 (W : Valuation τ sig (Elt F)) {r : Ref sig .tc} (hr : r ∉ c4_W) :
    after c4 W (Proc.devRef .tc r) = W (Proc.devRef .tc r) :=
  after_of_writes_sub c4 W c4_writes hr

theorem c5_writes : (c5 : List (HloOp τ sig (Elt F))).Forall fun op => op.writes ⊆ (c5_W.map (Proc.devRef (τ := τ) .tc)).toFinset := by
  simp only [c5, ops, List.take_succ_cons, List.take_zero, List.drop_succ_cons, List.drop_zero, List.Forall]
  repeat' constructor
  all_goals (simp only [nullary_writes, unary_writes, binary_writes, ternary_writes, reshape_writes, Finset.singleton_subset_iff, List.mem_toFinset]; exact List.mem_map_of_mem (by decide))

theorem frame5 (W : Valuation τ sig (Elt F)) {r : Ref sig .tc} (hr : r ∉ c5_W) :
    after c5 W (Proc.devRef .tc r) = W (Proc.devRef .tc r) :=
  after_of_writes_sub c5 W c5_writes hr

theorem c7_writes : (c7 : List (HloOp τ sig (Elt F))).Forall fun op => op.writes ⊆ (c7_W.map (Proc.devRef (τ := τ) .tc)).toFinset := by
  simp only [c7, ops, List.take_succ_cons, List.take_zero, List.drop_succ_cons, List.drop_zero, List.Forall]
  repeat' constructor
  all_goals (simp only [nullary_writes, unary_writes, binary_writes, ternary_writes, reshape_writes, Finset.singleton_subset_iff, List.mem_toFinset]; exact List.mem_map_of_mem (by decide))

theorem frame7 (W : Valuation τ sig (Elt F)) {r : Ref sig .tc} (hr : r ∉ c7_W) :
    after c7 W (Proc.devRef .tc r) = W (Proc.devRef .tc r) :=
  after_of_writes_sub c7 W c7_writes hr

theorem run_after (m' : (ℓ : Loc nD τ sig) → Buf (Elt F) ℓ) (ρ' : Dev nD → PrngReg) :
    θ_run (defs (F := F)) (onTc (τ := τ) (main (F := F))) ⟨m', fun _ => 0, ρ'⟩ (fun r => ∀ (d : Dev nD) (b : Ref sig .tc),
      r.2.mem ((d.tc : Thread nD τ).loc b) = after ops (launchContents m' d) (Proc.devRef .tc b)) :=
  run_seq scopedRefs_eq scopedSems_eq defs main (fun _ => ops) main_eq (fun _ => ops_sub) m' ρ'

end Cert.RefRunHand

end
-- ==== Proof.RefRunHandA.lean ====
import proofs.«424948_j65738769433295_3_alg».proof.Proof.RefRunHandDefs

noncomputable section

namespace Cert.RefRunHand

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

variable (W : Valuation τ sig (Elt F))
  (a0 : Ci F S1) (a1 a2 : Cf F S1x1x1024)
  (a3 : Cf F S50257x1024) (a4 a5 : Cf F S4096x1024)
  (a6 a7 : Cf F S4096) (a8 : Cf F S50257x1024)
  (a9 : Cf F S50257)

theorem s1 (h0 : W (Proc.devRef .tc main_arg0) = a0) (h3 : W (Proc.devRef .tc main_arg3) = a3) :
    after c1 W (Proc.devRef .tc main_v6) = val_main_v6 (F := F) a0 a3 := by
  simp only [c1, ops, List.take_succ_cons, List.take_zero, List.drop_succ_cons, List.drop_zero]
  after_results
  rw [h0, h3]
  rfl

theorem s2 (h1 : W (Proc.devRef .tc main_arg1) = a1) (h2 : W (Proc.devRef .tc main_arg2) = a2) (h4 : W (Proc.devRef .tc main_arg4) = a4)
    (h5 : W (Proc.devRef .tc main_arg5) = a5) (h6 : W (Proc.devRef .tc main_arg6) = a6) (h7 : W (Proc.devRef .tc main_arg7) = a7)
    (hv6 : W (Proc.devRef .tc main_v6) = val_main_v6 (F := F) a0 a3) :
    after c2 W (Proc.devRef .tc main_v8) = val_main_v8 (F := F) a2
    ∧ after c2 W (Proc.devRef .tc main_v17) = val_main_v17 (F := F) a0 a1 a3 a4 a5 a6 a7 := by
  simp only [c2, ops, List.take_succ_cons, List.take_zero, List.drop_succ_cons, List.drop_zero]
  refine ⟨?_, ?_⟩
  · after_results
    rw [h2]
    rfl
  · after_results
    rw [h1, h4, h5, h6, h7, hv6]
    rfl

theorem s3 (hv17 : W (Proc.devRef .tc main_v17) = val_main_v17 (F := F) a0 a1 a3 a4 a5 a6 a7) :
    after c3 W (Proc.devRef .tc main_v19) = val_main_v19 (F := F) a0 a1 a3 a4 a5 a6 a7
    ∧ after c3 W (Proc.devRef .tc main_v20) = val_main_v20 (F := F) a0 a1 a3 a4 a5 a6 a7
    ∧ after c3 W (Proc.devRef .tc main_v21) = val_main_v21 (F := F) a0 a1 a3 a4 a5 a6 a7
    ∧ after c3 W (Proc.devRef .tc main_v27) = val_main_v27 (F := F) a0 a1 a3 a4 a5 a6 a7 := by
  simp only [c3, ops, List.take_succ_cons, List.take_zero, List.drop_succ_cons, List.drop_zero]
  refine ⟨?_, ?_, ?_, ?_⟩ <;> (after_results; rw [hv17]; rfl)

theorem s4 (hv19 : W (Proc.devRef .tc main_v19) = val_main_v19 (F := F) a0 a1 a3 a4 a5 a6 a7)
    (hv20 : W (Proc.devRef .tc main_v20) = val_main_v20 (F := F) a0 a1 a3 a4 a5 a6 a7) :
    after c4 W (Proc.devRef .tc main_v33) = val_main_v33 (F := F) a0 a1 a3 a4 a5 a6 a7
    ∧ after c4 W (Proc.devRef .tc main_v34) = val_main_v34 (F := F) a0 a1 a3 a4 a5 a6 a7 := by
  simp only [c4, ops, List.take_succ_cons, List.take_zero, List.drop_succ_cons, List.drop_zero]
  refine ⟨?_, ?_⟩
  · after_results
    rw [hv19]
    rfl
  · after_results
    rw [hv20]
    rfl

end Cert.RefRunHand

end
-- ==== Proof.LibTRefPlain.lean ====
import Idealize.ShloMosaic.Lib.StableHlo

noncomputable section

namespace Idealize.ShloMosaic.StableHlo.TRefPlain

open Idealize.ShloMosaic Idealize.ShloMosaic.StableHlo

variable {τ : Topo} {sig : RefSig} {Val : EltTy → Type}

theorem nullary_eq (y : Ref sig .tc) (h1 : y.space ≠ .host) (h2 : y.isScoped = false) (v : y.ty.Contents Val) :
    (TRef.nullary (TRef.of (T := y.ty) y rfl h1 h2) v : HloOp τ sig Val)
      = StableHlo.nullary y v (TRef.dev (TRef.of (T := y.ty) y rfl h1 h2)) := rfl

theorem unary_eq (x y : Ref sig .tc) (hx1 : x.space ≠ .host) (hx2 : x.isScoped = false)
    (hy1 : y.space ≠ .host) (hy2 : y.isScoped = false) (f : x.ty.Contents Val → y.ty.Contents Val) :
    (TRef.unary (TRef.of (T := x.ty) x rfl hx1 hx2) (TRef.of (T := y.ty) y rfl hy1 hy2) f : HloOp τ sig Val)
      = StableHlo.unary x y f (TRef.dev (TRef.of (T := x.ty) x rfl hx1 hx2)) (TRef.dev (TRef.of (T := y.ty) y rfl hy1 hy2)) := rfl

theorem binary_eq (a b y : Ref sig .tc) (ha1 : a.space ≠ .host) (ha2 : a.isScoped = false)
    (hb1 : b.space ≠ .host) (hb2 : b.isScoped = false) (hy1 : y.space ≠ .host) (hy2 : y.isScoped = false)
    (f : a.ty.Contents Val → b.ty.Contents Val → y.ty.Contents Val) :
    (TRef.binary (TRef.of (T := a.ty) a rfl ha1 ha2) (TRef.of (T := b.ty) b rfl hb1 hb2)
        (TRef.of (T := y.ty) y rfl hy1 hy2) f : HloOp τ sig Val)
      = StableHlo.binary a b y f (TRef.dev (TRef.of (T := a.ty) a rfl ha1 ha2))
          (TRef.dev (TRef.of (T := b.ty) b rfl hb1 hb2)) (TRef.dev (TRef.of (T := y.ty) y rfl hy1 hy2)) := rfl

end Idealize.ShloMosaic.StableHlo.TRefPlain

end
-- ==== Proof.RefRunHandB.lean ====
import proofs.«424948_j65738769433295_3_alg».proof.Proof.RefRunHandDefs
import proofs.«424948_j65738769433295_3_alg».proof.Proof.LibTRefPlain

noncomputable section

namespace Cert.RefRunHand

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

variable (W : Valuation τ sig (Elt F))
  (a0 : Ci F S1) (a1 a2 : Cf F S1x1x1024)
  (a3 : Cf F S50257x1024) (a4 a5 : Cf F S4096x1024)
  (a6 a7 : Cf F S4096) (a8 : Cf F S50257x1024)
  (a9 : Cf F S50257)

theorem s5 (hv21 : W (Proc.devRef .tc main_v21) = val_main_v21 (F := F) a0 a1 a3 a4 a5 a6 a7) :
    after c5 W (Proc.devRef .tc main_v40) = val_main_v40 (F := F) a0 a1 a3 a4 a5 a6 a7 := by
  simp only [c5, ops, List.take_succ_cons, List.take_zero, List.drop_succ_cons, List.drop_zero]
  after_results
  rw [hv21]
  rfl

theorem s6 (hv33 : W (Proc.devRef .tc main_v33) = val_main_v33 (F := F) a0 a1 a3 a4 a5 a6 a7) (hv8 : W (Proc.devRef .tc main_v8) = val_main_v8 (F := F) a2)
    (hv27 : W (Proc.devRef .tc main_v27) = val_main_v27 (F := F) a0 a1 a3 a4 a5 a6 a7) (hv34 : W (Proc.devRef .tc main_v34) = val_main_v34 (F := F) a0 a1 a3 a4 a5 a6 a7)
    (hv40 : W (Proc.devRef .tc main_v40) = val_main_v40 (F := F) a0 a1 a3 a4 a5 a6 a7) (h8 : W (Proc.devRef .tc main_arg8) = a8) (h9 : W (Proc.devRef .tc main_arg9) = a9) :
    after c6 W (Proc.devRef .tc main_v43) = val_main_v43 (F := F) a0 a1 a2 a3 a4 a5 a6 a7
    ∧ after c6 W (Proc.devRef .tc main_v45) = val_main_v45 (F := F) a0 a1 a2 a3 a4 a5 a6 a7
    ∧ after c6 W (Proc.devRef .tc main_v49) = val_main_v49 (F := F) a0 a1 a2 a3 a4 a5 a6 a7 a8 a9 := by
  simp only [c6, ops, List.take_succ_cons, List.take_zero, List.drop_succ_cons, List.drop_zero]
  refine ⟨?_, ?_, ?_⟩
  · after_results
    rw [hv33, hv8, hv27, hv34]
    rfl
  · after_results
    rw [hv33, hv8, hv27, hv34, hv40]
    rfl
  · after_results
    rw [hv33, hv8, hv27, hv34, hv40, h8, h9]
    rfl

def rowMax (x : Cf F S1x50257) (v : Cf F S_) :
    Cf F S1 :=
  Host.reduce FloatOps.maximumf x v reducesTo_S1x50257_S1_d1 h_S_

abbrev c7' : List (HloOp τ sig (Elt F)) :=
  [ nullary main_call0_cst (constant S_ .f32 0xFF800000#32),
    binary main_v49 main_call0_cst main_call0_v0 (rowMax : Cf F S1x50257 → Cf F S_ → Cf F S1),
    nullary main_call0_cst_0 (constant S_ .f32 0xFF800000#32),
    unary main_call0_cst_0 main_call0_v1 (broadcastInDim S1 ![] bcast_S_S1 : Cf F S_ → Cf F S1),
    binary main_call0_v1 main_call0_v0 main_call0_v2 (maximumf : Cf F S1 → Cf F S1 → Cf F S1),
    unary main_call0_v2 main_call0_v3 (broadcastInDim S1x1 ![0] bcast_S1_S1x1_0 : Cf F S1 → Cf F S1x1),
    unary main_call0_v3 main_call0_v4 (broadcastInDim S1x50257 ![0, 1] bcast_S1x1_S1x50257_0_1 : Cf F S1x1 → Cf F S1x50257),
    binary main_v49 main_call0_v4 main_call0_v5 (subf : Cf F S1x50257 → Cf F S1x50257 → Cf F S1x50257),
    unary main_call0_v5 main_call0_v6 (Host.exp : Cf F S1x50257 → Cf F S1x50257) ]

theorem c7_eq : (c7 : List (HloOp τ sig (Elt F))) = c7' :=
  congrArg₂ List.cons (TRefPlain.nullary_eq main_call0_cst (by decide) rfl _) <|
  congrArg₂ List.cons (TRefPlain.binary_eq main_v49 main_call0_cst main_call0_v0 (by decide) rfl (by decide) rfl (by decide) rfl rowMax) <|
  congrArg₂ List.cons (TRefPlain.nullary_eq main_call0_cst_0 (by decide) rfl _) <|
  congrArg₂ List.cons (TRefPlain.unary_eq main_call0_cst_0 main_call0_v1 (by decide) rfl (by decide) rfl _) <|
  congrArg₂ List.cons (TRefPlain.binary_eq main_call0_v1 main_call0_v0 main_call0_v2 (by decide) rfl (by decide) rfl (by decide) rfl _) <|
  congrArg₂ List.cons (TRefPlain.unary_eq main_call0_v2 main_call0_v3 (by decide) rfl (by decide) rfl _) <|
  congrArg₂ List.cons (TRefPlain.unary_eq main_call0_v3 main_call0_v4 (by decide) rfl (by decide) rfl _) <|
  congrArg₂ List.cons (TRefPlain.binary_eq main_v49 main_call0_v4 main_call0_v5 (by decide) rfl (by decide) rfl (by decide) rfl _) <|
  congrArg₂ List.cons (TRefPlain.unary_eq main_call0_v5 main_call0_v6 (by decide) rfl (by decide) rfl _) rfl

theorem val_v0_eq : val_main_call0_v0 (F := F) a0 a1 a2 a3 a4 a5 a6 a7 a8 a9 = rowMax (val_main_v49 (F := F) a0 a1 a2 a3 a4 a5 a6 a7 a8 a9) (val_main_call0_cst (F := F)) := rfl

theorem s7 (hv49 : W (Proc.devRef .tc main_v49) = val_main_v49 (F := F) a0 a1 a2 a3 a4 a5 a6 a7 a8 a9) :
    after c7 W (Proc.devRef .tc main_call0_v5) = val_main_call0_v5 (F := F) a0 a1 a2 a3 a4 a5 a6 a7 a8 a9
    ∧ after c7 W (Proc.devRef .tc main_call0_v6) = val_main_call0_v6 (F := F) a0 a1 a2 a3 a4 a5 a6 a7 a8 a9 := by
  rw [c7_eq]
  refine ⟨?_, ?_⟩
  · after_results
    rw [hv49]
    unfold val_main_call0_v5 val_main_call0_v4 val_main_call0_v3 val_main_call0_v2 val_main_call0_v1
    rw [val_v0_eq]
    rfl
  · after_results
    rw [hv49]
    unfold val_main_call0_v6 val_main_call0_v5 val_main_call0_v4 val_main_call0_v3 val_main_call0_v2 val_main_call0_v1
    rw [val_v0_eq]
    rfl

theorem s8 (hc6 : W (Proc.devRef .tc main_call0_v6) = val_main_call0_v6 (F := F) a0 a1 a2 a3 a4 a5 a6 a7 a8 a9)
    (hc5 : W (Proc.devRef .tc main_call0_v5) = val_main_call0_v5 (F := F) a0 a1 a2 a3 a4 a5 a6 a7 a8 a9)
    (hv45 : W (Proc.devRef .tc main_v45) = val_main_v45 (F := F) a0 a1 a2 a3 a4 a5 a6 a7) (hv43 : W (Proc.devRef .tc main_v43) = val_main_v43 (F := F) a0 a1 a2 a3 a4 a5 a6 a7) :
    after c8 W (Proc.devRef .tc main_v50) = val_main_v50 (F := F) a0 a1 a2 a3 a4 a5 a6 a7 a8 a9
    ∧ after c8 W (Proc.devRef .tc main_v51) = val_main_v51 (F := F) a0 a1 a2 a3 a4 a5 a6 a7
    ∧ after c8 W (Proc.devRef .tc main_v52) = val_main_v52 (F := F) a0 a1 a2 a3 a4 a5 a6 a7 := by
  simp only [c8, ops, List.take_succ_cons, List.take_zero, List.drop_succ_cons, List.drop_zero]
  refine ⟨?_, ?_, ?_⟩
  · after_results
    try simp only [TRef.ofBuf, TRef.toBuf, cast_eq]
    rw [hc6, hc5]
    rfl
  · after_results
    rw [hv45]
    rfl
  · after_results
    rw [hv43]
    rfl

end Cert.RefRunHand

end
-- ==== Proof.RefRunHand.lean ====
import proofs.«424948_j65738769433295_3_alg».proof.Proof.RefRunHandA
import proofs.«424948_j65738769433295_3_alg».proof.Proof.RefRunHandB

noncomputable section

namespace Cert.RefRunHand

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev ops_W : List (Ref sig .tc) := c1_W ++ c2_W ++ c3_W ++ c4_W ++ c5_W ++ c6_W ++ c7_W ++ c8_W

theorem ops_writes : (ops : List (HloOp τ sig (Elt F))).Forall fun op => op.writes ⊆ (ops_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem keep (V : Valuation τ sig (Elt F)) {r : Ref sig .tc} (hr : r ∉ ops_W) :
    after ops V (Proc.devRef .tc r) = V (Proc.devRef .tc r) :=
  after_of_writes_sub ops V ops_writes hr

theorem after_ops (V : Valuation τ sig (Elt F)) :
    after ops V (Proc.devRef .tc main_v50) = val_main_v50 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
    ∧ after ops V (Proc.devRef .tc main_v51) = val_main_v51 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))
    ∧ after ops V (Proc.devRef .tc main_v52) = val_main_v52 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops_eq]

  have e6 := s1 V _ _ rfl rfl

  obtain ⟨e8, e17⟩ := s2 (after c1 V) _ _ _ _ _ _ _ _ (frame1 V (r := main_arg1) (by decide)) (frame1 V (r := main_arg2) (by decide))
    (frame1 V (r := main_arg4) (by decide)) (frame1 V (r := main_arg5) (by decide)) (frame1 V (r := main_arg6) (by decide))
    (frame1 V (r := main_arg7) (by decide)) e6
  obtain ⟨e19, e20, e21, e27⟩ := s3 (after c2 (after c1 V)) _ _ _ _ _ _ _ e17
  obtain ⟨e33, e34⟩ := s4 (after c3 (after c2 (after c1 V))) _ _ _ _ _ _ _ e19 e20

  have e40 := s5 (after c4 (after c3 (after c2 (after c1 V)))) _ _ _ _ _ _ _ ((frame4 (after c3 (after c2 (after c1 V))) (r := main_v21) (by decide)).trans e21)

  have k33 := (frame5 (after c4 (after c3 (after c2 (after c1 V)))) (r := main_v33) (by decide)).trans e33
  have k34 := (frame5 (after c4 (after c3 (after c2 (after c1 V)))) (r := main_v34) (by decide)).trans e34
  have k27 := (frame5 (after c4 (after c3 (after c2 (after c1 V)))) (r := main_v27) (by decide)).trans ((frame4 (after c3 (after c2 (after c1 V))) (r := main_v27) (by decide)).trans e27)
  have k8 := (frame5 (after c4 (after c3 (after c2 (after c1 V)))) (r := main_v8) (by decide)).trans ((frame4 (after c3 (after c2 (after c1 V))) (r := main_v8) (by decide)).trans
    ((frame3 (after c2 (after c1 V)) (r := main_v8) (by decide)).trans e8))
  have ka (r : Ref sig .tc) (h1 : r ∉ c1_W) (h2 : r ∉ c2_W) (h3 : r ∉ c3_W) (h4 : r ∉ c4_W) (h5 : r ∉ c5_W) :
      (after c5 (after c4 (after c3 (after c2 (after c1 V))))) (Proc.devRef .tc r) = V (Proc.devRef .tc r) :=
    (frame5 _ h5).trans ((frame4 _ h4).trans ((frame3 _ h3).trans ((frame2 _ h2).trans (frame1 _ h1))))
  obtain ⟨e43, e45, e49⟩ := s6 (after c5 (after c4 (after c3 (after c2 (after c1 V))))) _ _ _ _ _ _ _ _ _ _ k33 k8 k27 k34 e40
    (ka main_arg8 (by decide) (by decide) (by decide) (by decide) (by decide))
    (ka main_arg9 (by decide) (by decide) (by decide) (by decide) (by decide))
  obtain ⟨ec5, ec6⟩ := s7 (after c6 (after c5 (after c4 (after c3 (after c2 (after c1 V)))))) _ _ _ _ _ _ _ _ _ _ e49
  exact s8 (after c7 (after c6 (after c5 (after c4 (after c3 (after c2 (after c1 V))))))) _ _ _ _ _ _ _ _ _ _ ec6 ec5
    ((frame7 (after c6 (after c5 (after c4 (after c3 (after c2 (after c1 V)))))) (r := main_v45) (by decide)).trans e45) ((frame7 (after c6 (after c5 (after c4 (after c3 (after c2 (after c1 V)))))) (r := main_v43) (by decide)).trans e43)

/-- The ten argument arrays of core `c` are in `s` as in `m'`. -/
abbrev Kept (m' s : (ℓ : Loc nD τ sig) → Buf (Elt F) ℓ) (c : Dev nD) : Prop :=
  s ((c.tc : Thread nD τ).loc main_arg0) = m' ((c.tc : Thread nD τ).loc main_arg0)
  ∧ s ((c.tc : Thread nD τ).loc main_arg1) = m' ((c.tc : Thread nD τ).loc main_arg1)
  ∧ s ((c.tc : Thread nD τ).loc main_arg2) = m' ((c.tc : Thread nD τ).loc main_arg2)
  ∧ s ((c.tc : Thread nD τ).loc main_arg3) = m' ((c.tc : Thread nD τ).loc main_arg3)
  ∧ s ((c.tc : Thread nD τ).loc main_arg4) = m' ((c.tc : Thread nD τ).loc main_arg4)
  ∧ s ((c.tc : Thread nD τ).loc main_arg5) = m' ((c.tc : Thread nD τ).loc main_arg5)
  ∧ s ((c.tc : Thread nD τ).loc main_arg6) = m' ((c.tc : Thread nD τ).loc main_arg6)
  ∧ s ((c.tc : Thread nD τ).loc main_arg7) = m' ((c.tc : Thread nD τ).loc main_arg7)
  ∧ s ((c.tc : Thread nD τ).loc main_arg8) = m' ((c.tc : Thread nD τ).loc main_arg8)
  ∧ s ((c.tc : Thread nD τ).loc main_arg9) = m' ((c.tc : Thread nD τ).loc main_arg9)

theorem ref_stages (m' : (ℓ : Loc nD τ sig) → Buf (Elt F) ℓ) (ρ' : Dev nD → PrngReg) :
    θ_run (defs (F := F)) (onTc (τ := τ) (main (F := F))) ⟨m', fun _ => 0, ρ'⟩ (fun r => ∀ c : Dev nD,
      r.2.mem ((c.tc : Thread nD τ).loc main_v50) = val_main_v50 (F := F) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9))
      ∧ r.2.mem ((c.tc : Thread nD τ).loc main_v51) = val_main_v51 (F := F) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7))
      ∧ r.2.mem ((c.tc : Thread nD τ).loc main_v52) = val_main_v52 (F := F) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7))
      ∧ Kept m' r.2.mem c) :=
  (θ_run (defs (F := F)) _ _).mono (fun _ h c => by
    obtain ⟨h50, h51, h52⟩ := after_ops (F := F) (launchContents m' c)
    exact ⟨(h c main_v50).trans h50, (h c main_v51).trans h51, (h c main_v52).trans h52,
      (h c main_arg0).trans (keep _ (by decide)),
      (h c main_arg1).trans (keep _ (by decide)),
      (h c main_arg2).trans (keep _ (by decide)),
      (h c main_arg3).trans (keep _ (by decide)),
      (h c main_arg4).trans (keep _ (by decide)),
      (h c main_arg5).trans (keep _ (by decide)),
      (h c main_arg6).trans (keep _ (by decide)),
      (h c main_arg7).trans (keep _ (by decide)),
      (h c main_arg8).trans (keep _ (by decide)),
      (h c main_arg9).trans (keep _ (by decide))⟩)
    (run_after m' ρ')

end Cert.RefRunHand

end
-- ==== Proof.LibRowTake.lean ====
import Idealize.ShloMosaic.Lib.ValueIdx

namespace Cert.LibRowTake

open Idealize.ShloMosaic Idealize.ShloMosaic.ValueIdx

variable {α : Type}

abbrev rowTakeDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

theorem rowTake_coord0 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 0).val = min (idx (ix2 r (0 : Fin 1))).toInt.toNat (N - 1) := by
  show (rowTakeDims N D n wf).start (ix2 r c) idx 0 + (rowTakeDims N D n wf).batchCoord (ix2 r c) 0
      + (rowTakeDims N D n wf).offCoord (ix2 r c) 0 = _
  have hk : (0 : Fin 2) ∉ (rowTakeDims N D n wf).sKept := fun hm =>
    ((GatherDims.mem_sKept _ _).1 hm).1 (List.mem_singleton.2 rfl)
  rw [GatherDims.batchCoord_eq_zero _ _ _ List.not_mem_nil, GatherDims.offCoord_eq_zero _ _ _ hk]
  simp only [Nat.add_zero]
  have hm : (0 : Fin 2) ∈ (rowTakeDims N D n wf).startIndexMap := List.mem_singleton.2 rfl
  unfold GatherDims.start
  rw [dif_pos hm]
  have hsi : (rowTakeDims N D n wf).siIdx (ix2 r c) ⟨List.idxOf (0 : Fin 2) (rowTakeDims N D n wf).startIndexMap,
      List.idxOf_lt_length_iff.2 hm⟩ = ix2 r (0 : Fin 1) := by
    funext b
    refine Fin.ext ?_
    match b with
    | ⟨0, _⟩ => rfl
    | ⟨1, _⟩ => rfl
  rw [hsi]
  rfl

theorem rowTake_coord1 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 1).val = c.val := by
  show (rowTakeDims N D n wf).start (ix2 r c) idx 1 + (rowTakeDims N D n wf).batchCoord (ix2 r c) 1
      + (rowTakeDims N D n wf).offCoord (ix2 r c) 1 = _
  have h10 : ¬ (1 : Fin 2) = 0 := fun e => absurd (congrArg Fin.val e) Nat.one_ne_zero
  have hm : (1 : Fin 2) ∉ (rowTakeDims N D n wf).startIndexMap := fun hm => h10 (List.mem_singleton.1 hm)
  have hs : (rowTakeDims N D n wf).start (ix2 r c) idx 1 = 0 := by
    unfold GatherDims.start
    rw [dif_neg hm]
  rw [hs, GatherDims.batchCoord_eq_zero _ _ _ List.not_mem_nil]
  simp only [Nat.zero_add]
  have hk : (1 : Fin 2) ∈ (rowTakeDims N D n wf).sKept :=
    (GatherDims.mem_sKept _ _).2 ⟨fun h => h10 (List.mem_singleton.1 h), List.not_mem_nil⟩
  unfold GatherDims.offCoord
  rw [dif_pos hk]
  rfl

theorem gather_rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (r : Fin n) (c : Fin D) :
    Host.gather (rowTakeDims N D n wf) x idx (ix2 r c)
      = x (ix2 ⟨min (idx (ix2 r (0 : Fin 1))).toInt.toNat (N - 1), by omega⟩ c) := by
  show x ((rowTakeDims N D n wf).operandIdx (ix2 r c) idx) = _
  congr 1
  funext a
  refine Fin.ext ?_
  match a with
  | ⟨0, _⟩ => exact rowTake_coord0 wf idx r c
  | ⟨1, _⟩ => exact rowTake_coord1 wf idx r c

end Cert.LibRowTake
-- ==== Proof.RefValueA.lean ====
import Idealize.ShloMosaic.PureOps.Ideal.Laws
import Idealize.ShloMosaic.Lib.IdealHost
import Idealize.ShloMosaic.Lib.ValueIdx

noncomputable section

namespace Cert.RefValue

open Idealize.ShloMosaic Idealize.ShloMosaic.ValueIdx

theorem tok_toNat (x : Fin 50257) : (BitVec.ofNat 32 x.val).toNat = x.val := by
  rw [BitVec.toNat_ofNat]
  exact Nat.mod_eq_of_lt (by have := x.isLt; omega)

theorem tok_toInt (x : Fin 50257) : (BitVec.ofNat 32 x.val).toInt = (x.val : Int) := by
  rw [BitVec.toInt_eq_toNat_cond, tok_toNat]
  have := x.isLt
  rw [if_pos (by omega)]

theorem tok_toInt_toNat (x : Fin 50257) : (BitVec.ofNat 32 x.val).toInt.toNat = x.val := by
  rw [tok_toInt]; rfl

theorem tok_select (x : Fin 50257) :
    Scalar.select (IntOp.cmpi .slt (BitVec.ofNat 32 x.val) (0#32 : BitVec 32))
        (IntOp.addi (BitVec.ofNat 32 x.val) (50257#32 : BitVec 32)) (BitVec.ofNat 32 x.val)
      = BitVec.ofNat 32 x.val := by
  have h : (BitVec.ofNat 32 x.val).slt (0#32 : BitVec 32) = false := by
    rw [BitVec.slt, tok_toInt]
    have : ¬ ((x.val : Int) < (0#32 : BitVec 32).toInt) := by
      have h0 : (0#32 : BitVec 32).toInt = 0 := by decide
      rw [h0]; omega
    exact decide_eq_false this
  show Scalar.select (BitVec.ofBool ((BitVec.ofNat 32 x.val).slt (0#32 : BitVec 32))) _ _ = _
  rw [h]
  exact select_zero _ _

theorem tok_min (x : Fin 50257) : min (BitVec.ofNat 32 x.val).toInt.toNat (50257 - 1) = x.val := by
  rw [tok_toInt_toNat]
  have := x.isLt
  omega

theorem ofBits_neg_inf : Ideal.ofBits .f32 0xFF800000#32 = (⊥ : EReal) := by simp [Ideal.ofBits, Ideal.ieee]

theorem fold_max_bot {n : Nat} (f : Fin n → EReal) :
    (Finset.univ : Finset (Fin n)).fold (FloatOps.maximumf (F := Ideal) (φ := .f32)) (⊥ : EReal) f = Finset.univ.sup f := by
  show (Finset.univ : Finset (Fin n)).fold (fun a b : EReal => max a b) ⊥ f = Finset.univ.sup f
  rfl

end Cert.RefValue

end
-- ==== Proof.RefValueB.lean ====
import proofs.«424948_j65738769433295_3_alg».proof.Proof.RefImports
import proofs.«424948_j65738769433295_3_alg».proof.Proof.Args
import proofs.«424948_j65738769433295_3_alg».proof.Proof.LibRowTake
import proofs.«424948_j65738769433295_3_alg».proof.Proof.RefValueA

noncomputable section

namespace Cert.RefValue

open Cert.ReferenceIdeal Cert.ReferenceIdeal.Gen Cert.ReferenceIdeal.Read Idealize.ShloMosaic Idealize.ShloMosaic.ValueIdx

local macro "idx2" : tactic => `(tactic| (funext a; match a with | ⟨0, _⟩ => rfl | ⟨1, _⟩ => rfl))
local macro "idx1" : tactic => `(tactic| (funext a; match a with | ⟨0, _⟩ => rfl))

variable (A : Cert.Args.Arrs) (x : Fin 50257)

abbrev tok : S1.Idx → BitVec 32 := fun _ => BitVec.ofNat 32 x.val

-- the four gates' pre-activations of the step, 4096 of them
abbrev gate : Fin 4096 → EReal := Spec.gate (Args.e A x) (Args.h A) (Args.wih A) (Args.whh A) (Args.bih A) (Args.bhh A)

theorem v5_at : val_main_v5 (F := Ideal) (tok x) (ix2 (0 : Fin 1) (0 : Fin 1)) = BitVec.ofNat 32 x.val := by
  rw [val_main_v5_apply, val_main_v4_apply, val_main_v1_apply, val_main_v3_apply, val_main_v0_apply, val_main_v2_apply,
    val_main_c_apply, val_main_c_0_apply]
  exact tok_select x

theorem v6_at (k : Fin 1024) :
    val_main_v6 (F := Ideal) (tok x) A.emb (ix2 (0 : Fin 1) k) = A.emb (ix2 x k) := by
  unfold val_main_v6
  refine (Cert.LibRowTake.gather_rowTake_apply (N := 50257) (D := 1024) (n := 1) (by decide)
    Facts₀.gather_S50257x1024_S1x1_S1x1024_1_0_n_n_0_1_11024_wf A.emb (val_main_v5 (F := Ideal) (tok x)) (0 : Fin 1) k).trans ?_
  exact congrArg (fun r : Fin 50257 => A.emb (ix2 r k)) (Fin.ext (by
    show min ((val_main_v5 (F := Ideal) (tok x)) (ix2 (0 : Fin 1) (0 : Fin 1))).toInt.toNat (50257 - 1) = x.val
    rw [v5_at x]; exact tok_min x))

theorem v17_at (j : Fin 4096) :
    val_main_v17 (F := Ideal) (tok x) A.hidden A.emb A.wih A.whh A.bih A.bhh (ix2 (0 : Fin 1) j) = gate A x j := by
  rw [val_main_v17_apply, val_main_v15_apply, val_main_v12_apply, val_main_v10_apply, val_main_v14_apply,
    val_main_v11_apply, val_main_v16_apply]
  simp only [Ideal.addf_def]
  unfold gate Spec.gate
  refine congrArg₂ (· + ·) (congrArg₂ (· + ·) (congrArg₂ (· + ·) (Finset.sum_congr rfl fun k _ => ?_) ?_)
    (Finset.sum_congr rfl fun k _ => ?_)) ?_
  · rw [show lidx_main_v10 (ix2 (0 : Fin 1) j) k = ix2 (0 : Fin 1) k from by idx2, v6_at, val_main_v9_apply,
      show idx_main_v9 (ridx_main_v10 (ix2 (0 : Fin 1) j) k) = ix2 j k from by idx2]
    rfl
  · exact congrArg A.bih (show idx_main_v11 (ix2 (0 : Fin 1) j) = ix1 j from by idx1)
  · rw [val_main_v7_apply, val_main_v13_apply,
      show idx_main_v13 (ridx_main_v14 (ix2 (0 : Fin 1) j) k) = ix2 j k from by idx2]
    refine congrArg (fun t => A.hidden t * A.whh (ix2 j k)) ?_
    funext a
    match a with
    | ⟨0, _⟩ | ⟨1, _⟩ => rfl
    | ⟨2, _⟩ => exact Fin.ext (show (0 * 1024 + k.val) % 1024 = k.val from by have := k.isLt; omega)
  · exact congrArg A.bhh (show idx_main_v16 (ix2 (0 : Fin 1) j) = ix1 j from by idx1)

-- 1 / (1 + exp (-g)) is the logistic function
theorem sigmoid_eq (g : EReal) :
    FloatOps.hostDivf (F := Ideal) (φ := .f32) (FloatOps.ofBits .f32 0x3F800000#32)
        (FloatOps.addf (FloatOps.ofBits .f32 0x3F800000#32) (FloatOps.hostUnary .exp (FloatOps.hostNegf g))) = Ideal.logistic g := by
  show FloatOps.hostDivf (F := Ideal) (φ := .f32) (Ideal.ofBits .f32 _) (FloatOps.addf (Ideal.ofBits .f32 _) _) = _
  rw [Ideal.ofBits_one_f32]; rfl

theorem v43_at (q : Fin 1024) :
    val_main_v43 (F := Ideal) (tok x) A.hidden A.cell A.emb A.wih A.whh A.bih A.bhh (ix2 (0 : Fin 1) q) = Args.cOut A x q := by
  rw [val_main_v43_apply, val_main_v41_apply, val_main_v42_apply,
    val_main_v33_apply, val_main_v32_apply, val_main_cst_3_apply, val_main_v31_apply, val_main_v30_apply, val_main_cst_2_apply, val_main_v29_apply, val_main_v28_apply, val_main_v19_apply,
    show idx_main_v19 (ix2 (0 : Fin 1) q) = ix2 (0 : Fin 1) (Spec.gf q) from by idx2, v17_at, sigmoid_eq,
    val_main_v27_apply, val_main_v26_apply, val_main_cst_1_apply, val_main_v25_apply, val_main_v24_apply, val_main_cst_apply, val_main_v23_apply, val_main_v22_apply, val_main_v18_apply,
    show idx_main_v18 (ix2 (0 : Fin 1) q) = ix2 (0 : Fin 1) (Spec.gi q) from by idx2, v17_at, sigmoid_eq,
    val_main_v34_apply, val_main_v20_apply,
    show idx_main_v20 (ix2 (0 : Fin 1) q) = ix2 (0 : Fin 1) (Spec.gg q) from by idx2, v17_at, val_main_v8_apply]
  have e : idx_main_v8 (ix2 (0 : Fin 1) q) = ix3 (0 : Fin 1) (0 : Fin 1) q := by
    funext a
    match a with
    | ⟨0, _⟩ | ⟨1, _⟩ => rfl
    | ⟨2, _⟩ => exact Fin.ext (show (0 * 1024 + q.val) % 1024 = q.val from by have := q.isLt; omega)
  rw [e]
  rfl

theorem v45_at (q : Fin 1024) :
    val_main_v45 (F := Ideal) (tok x) A.hidden A.cell A.emb A.wih A.whh A.bih A.bhh (ix2 (0 : Fin 1) q) = Args.hOut A x q := by
  rw [val_main_v45_apply, val_main_v40_apply, val_main_v39_apply, val_main_cst_5_apply, val_main_v38_apply, val_main_v37_apply, val_main_cst_4_apply, val_main_v36_apply, val_main_v35_apply, val_main_v21_apply,
    show idx_main_v21 (ix2 (0 : Fin 1) q) = ix2 (0 : Fin 1) (Spec.go q) from by idx2, v17_at, sigmoid_eq,
    val_main_v44_apply, v43_at]
  rfl

end Cert.RefValue

end
-- ==== Proof.RefValueC.lean ====
import proofs.«424948_j65738769433295_3_alg».proof.Proof.RefValueB

noncomputable section

namespace Cert.RefValue

open Cert.ReferenceIdeal Cert.ReferenceIdeal.Gen Cert.ReferenceIdeal.Read Idealize.ShloMosaic Idealize.ShloMosaic.ValueIdx

local macro "idx2" : tactic => `(tactic| (funext a; match a with | ⟨0, _⟩ => rfl | ⟨1, _⟩ => rfl))
local macro "idx1" : tactic => `(tactic| (funext a; match a with | ⟨0, _⟩ => rfl))

variable (A : Cert.Args.Arrs) (x : Fin 50257)

theorem v49_at (j : Fin 50257) :
    val_main_v49 (F := Ideal) (tok x) A.hidden A.cell A.emb A.wih A.whh A.bih A.bhh A.fcw A.fcb (ix2 (0 : Fin 1) j) = Args.z A x j := by
  rw [val_main_v49_apply, val_main_v47_apply, val_main_v48_apply]
  simp only [Ideal.addf_def]
  unfold Args.z Spec.logit
  refine congrArg₂ (· + ·) (Finset.sum_congr rfl fun k _ => ?_) ?_
  · rw [show lidx_main_v47 (ix2 (0 : Fin 1) j) k = ix2 (0 : Fin 1) k from by idx2, v45_at, val_main_v46_apply,
      show idx_main_v46 (ridx_main_v47 (ix2 (0 : Fin 1) j) k) = ix2 j k from by idx2]
    rfl
  · exact congrArg A.fcb (show idx_main_v48 (ix2 (0 : Fin 1) j) = ix1 j from by idx1)

theorem v0_at : val_main_call0_v0 (F := Ideal) (tok x) A.hidden A.cell A.emb A.wih A.whh A.bih A.bhh A.fcw A.fcb (ix1 (0 : Fin 1)) = Spec.zmax (Args.z A x) := by
  unfold val_main_call0_v0
  have hR : S1x50257.Reduces [1] S1 := by decide
  refine (Host.reduce_eq_fold_single (FloatOps.maximumf (F := Ideal) (φ := .f32)) _ (val_main_call0_cst (F := Ideal)) Facts₀.reducesTo_S1x50257_S1_d1 hR Facts₀.h_S_ (ix1 (0 : Fin 1))).trans ?_
  have hb : val_main_call0_cst (F := Ideal) (Shape.Idx.first Facts₀.h_S_) = (⊥ : EReal) := ofBits_neg_inf
  have hf : (_ ∘ hR.lift (ix1 (0 : Fin 1))) = fun k : Fin 50257 => Args.z A x k :=
    funext fun k => (congrArg _ (show hR.lift (ix1 (0 : Fin 1)) k = ix2 (0 : Fin 1) k from by idx2)).trans (v49_at A x k)
  rw [hf, hb]
  exact fold_max_bot _

theorem v5c_at (j : Fin 50257) :
    val_main_call0_v5 (F := Ideal) (tok x) A.hidden A.cell A.emb A.wih A.whh A.bih A.bhh A.fcw A.fcb (ix2 (0 : Fin 1) j) = Args.z A x j - Spec.zmax (Args.z A x) := by
  rw [val_main_call0_v5_apply, v49_at, val_main_call0_v4_apply, val_main_call0_v3_apply,
    show idx_main_call0_v3 (idx_main_call0_v4 (ix2 (0 : Fin 1) j)) = ix1 (0 : Fin 1) from by idx1,
    val_main_call0_v2_apply, val_main_call0_v1_apply, val_main_call0_cst_0_apply, v0_at]
  refine (Ideal.subf_def _ _).trans (congrArg (Args.z A x j - ·) ?_)
  show max (Ideal.ofBits .f32 0xFF800000#32) _ = _
  rw [ofBits_neg_inf]
  exact max_bot_left _

theorem v50_at (j : Fin 50257) :
    val_main_v50 (F := Ideal) (tok x) A.hidden A.cell A.emb A.wih A.whh A.bih A.bhh A.fcw A.fcb (ix2 (0 : Fin 1) j) = Spec.logSoftmax (Args.z A x) j := by
  rw [val_main_v50_apply, v5c_at, val_main_call0_v10_apply, val_main_call0_v9_apply, val_main_call0_v8_apply,
    show idx_main_call0_v8 (idx_main_call0_v10 (ix2 (0 : Fin 1) j)) = ix1 (0 : Fin 1) from by idx1]
  refine (Ideal.subf_def _ _).trans (congrArg (Args.z A x j - Spec.zmax (Args.z A x) - ·) ((Ideal.hostUnary_log_def _).trans (congrArg Ideal.log ?_)))
  rw [val_main_call0_v7_apply, val_main_call0_cst_1_apply]
  show Ideal.ofBits .f32 0x00000000#32 + _ = _
  rw [Ideal.ofBits_zero_f32, zero_add]
  refine Finset.sum_congr rfl fun k _ => ?_
  rw [show idx_main_call0_v7 (ix1 (0 : Fin 1)) k = ix2 (0 : Fin 1) k from by idx2, val_main_call0_v6_apply, v5c_at]
  exact Ideal.hostUnary_exp_def _

theorem v51_at (q : Fin 1024) :
    val_main_v51 (F := Ideal) (tok x) A.hidden A.cell A.emb A.wih A.whh A.bih A.bhh (ix3 (0 : Fin 1) (0 : Fin 1) q) = Args.hOut A x q := by
  rw [val_main_v51_apply, show idx_main_v51 (ix3 (0 : Fin 1) (0 : Fin 1) q) = ix2 (0 : Fin 1) q from by idx2, v45_at]

theorem v52_at (q : Fin 1024) :
    val_main_v52 (F := Ideal) (tok x) A.hidden A.cell A.emb A.wih A.whh A.bih A.bhh (ix3 (0 : Fin 1) (0 : Fin 1) q) = Args.cOut A x q := by
  rw [val_main_v52_apply, show idx_main_v52 (ix3 (0 : Fin 1) (0 : Fin 1) q) = ix2 (0 : Fin 1) q from by idx2, v43_at]

theorem eq_ix2_row {n : Nat} (i : (⟨2, ![1, n]⟩ : Shape).Idx) : i = ix2 (0 : Fin 1) (i 1) :=
  (eq_ix2 i).trans (congrArg (ix2 · (i 1)) (Fin.fin_one_eq_zero (i 0)))

theorem eq_ix3_row {n : Nat} (i : (⟨3, ![1, 1, n]⟩ : Shape).Idx) : i = ix3 (0 : Fin 1) (0 : Fin 1) (i 2) :=
  (eq_ix3 i).trans (congrArg₂ (ix3 · · (i 2)) (Fin.fin_one_eq_zero (i 0)) (Fin.fin_one_eq_zero (i 1)))

theorem res0_eq : val_main_v50 (F := Ideal) (tok x) A.hidden A.cell A.emb A.wih A.whh A.bih A.bhh A.fcw A.fcb = Args.res0 A x :=
  funext fun i => (congrArg _ (eq_ix2_row i)).trans (v50_at A x (i 1))

theorem res1_eq : val_main_v51 (F := Ideal) (tok x) A.hidden A.cell A.emb A.wih A.whh A.bih A.bhh = Args.res1 A x :=
  funext fun i => (congrArg _ (eq_ix3_row i)).trans (v51_at A x (i 2))

theorem res2_eq : val_main_v52 (F := Ideal) (tok x) A.hidden A.cell A.emb A.wih A.whh A.bih A.bhh = Args.res2 A x :=
  funext fun i => (congrArg _ (eq_ix3_row i)).trans (v52_at A x (i 2))

end Cert.RefValue

end
-- ==== Proof.RefValue.lean ====
import proofs.«424948_j65738769433295_3_alg».proof.Proof.RefRunHand
import proofs.«424948_j65738769433295_3_alg».proof.Proof.RefValueC

noncomputable section

namespace Cert.RefValue

open Cert.ReferenceIdeal Cert.ReferenceIdeal.Gen Idealize.ShloMosaic Idealize.ShloMosaic.TcCoe Idealize.SL.Sem

def arrs (m' : (ℓ : Loc nD τ sig) → Buf (Elt Ideal) ℓ) (c : Dev nD) : Cert.Args.Arrs :=
  ⟨m' ((c.tc : Thread nD τ).loc main_arg1),
    m' ((c.tc : Thread nD τ).loc main_arg2),
    m' ((c.tc : Thread nD τ).loc main_arg3),
    m' ((c.tc : Thread nD τ).loc main_arg4),
    m' ((c.tc : Thread nD τ).loc main_arg5),
    m' ((c.tc : Thread nD τ).loc main_arg6),
    m' ((c.tc : Thread nD τ).loc main_arg7),
    m' ((c.tc : Thread nD τ).loc main_arg8),
    m' ((c.tc : Thread nD τ).loc main_arg9)⟩

theorem ref_run (m' : (ℓ : Loc nD τ sig) → Buf (Elt Ideal) ℓ) (ρ' : Dev nD → PrngReg) (x : Fin 50257)
    (hx : ∀ c : Dev nD, m' ((c.tc : Thread nD τ).loc main_arg0) = fun _ => BitVec.ofNat 32 x.val) :
    θ_run (defs (F := Ideal)) (onTc (τ := τ) (main (F := Ideal))) ⟨m', fun _ => 0, ρ'⟩ (fun r => ∀ c : Dev nD,
      r.2.mem ((c.tc : Thread nD τ).loc main_v50) = Cert.Args.res0 (arrs m' c) x
      ∧ r.2.mem ((c.tc : Thread nD τ).loc main_v51) = Cert.Args.res1 (arrs m' c) x
      ∧ r.2.mem ((c.tc : Thread nD τ).loc main_v52) = Cert.Args.res2 (arrs m' c) x
      ∧ Cert.RefRunHand.Kept m' r.2.mem c) :=
  (θ_run (defs (F := Ideal)) _ _).mono (fun _ h c => by
    obtain ⟨h50, h51, h52, hargs⟩ := h c
    rw [hx c] at h50 h51 h52
    exact ⟨h50.trans (res0_eq (arrs m' c) x), h51.trans (res1_eq (arrs m' c) x), h52.trans (res2_eq (arrs m' c) x), hargs⟩)
    (Cert.RefRunHand.ref_stages (F := Ideal) m' ρ')

end Cert.RefValue

end
-- ==== Proof.lean ====
import proofs.«424948_j65738769433295_3_alg».proof.Defs
import proofs.«424948_j65738769433295_3_alg».proof.Proof.Gen.Kernel
import proofs.«424948_j65738769433295_3_alg».proof.Proof.Gen.KernelIdeal
import proofs.«424948_j65738769433295_3_alg».proof.Proof.Gen.ReferenceIdeal
import proofs.«424948_j65738769433295_3_alg».proof.Proof.Gen.Pre_finite_inputs
import proofs.«424948_j65738769433295_3_alg».proof.Proof.Frames
import proofs.«424948_j65738769433295_3_alg».proof.Proof.BitsFrames
import proofs.«424948_j65738769433295_3_alg».proof.Proof.KernelValue
import proofs.«424948_j65738769433295_3_alg».proof.Proof.RefValue
import proofs.«424948_j65738769433295_3_alg».proof.Proof.PreFacts
import Idealize.ShloMosaic.Adequacy
import Idealize.ShloMosaic.Init

noncomputable section

namespace Cert.Proof

open Idealize.ShloMosaic Idealize.SL.Sem

/-- The precondition puts the token below the vocabulary size, where the run at the token's table applies. -/
theorem frame_Kernel : Cert.frame_Kernel := fun m g hpre => by
  obtain ⟨x, hx⟩ := Cert.PreFacts.token_of_pre_bits m hpre 0
  exact Cert.Kernel.Hand.frame_token m g x fun c => by obtain rfl : c = 0 := Subsingleton.elim _ _; exact hx

theorem frame_KernelIdeal : Cert.frame_KernelIdeal := fun m g hpre => by
  obtain ⟨x, hx⟩ := Cert.PreFacts.token_of_pre m hpre 0
  exact Cert.KernelIdeal.Hand.frame_token m g x fun c => by obtain rfl : c = 0 := Subsingleton.elim _ _; exact hx

/-- The idealization's one rewrite: the fill of the padded vocabulary columns is named `-∞`. -/
theorem preserves : Cert.preserves_Kernel_KernelIdeal :=
  IdealRules.named_const.statement Cert.KernelIdeal.κ "neg_big" .f32 0xFF333332#32 ⊥ rfl

theorem frame_ReferenceIdeal : Cert.frame_ReferenceIdeal := fun m g _ =>
  (θ_run Cert.ReferenceIdeal.defs _ _).mono (fun _ h c => (h c).2.2.2) (Cert.RefRunHand.ref_stages (F := Ideal) m g)

open Cert.KernelIdeal Cert.KernelIdeal.Hand in
/-- Both idealized programs end with the specification's three arrays of the common arguments and token. -/
theorem algebraic : Cert.algebraic_KernelIdeal_ReferenceIdeal := fun m g m' g' hpre hagree => by
  obtain ⟨x, hx⟩ := Cert.PreFacts.token_of_pre m hpre 0
  have hT : Token m x := fun c => by obtain rfl : c = 0 := Subsingleton.elim _ _; exact hx
  have hA : ∀ c : Dev Cert.ReferenceIdeal.nD, Cert.RefValue.arrs m' c = Cert.KernelValue.argsOf m c := fun c => by
    obtain ⟨-, h1, h2, h3, h4, h5, h6, h7, h8, h9⟩ := hagree c
    unfold Cert.RefValue.arrs Cert.KernelValue.argsOf
    rw [h1, h2, h3, h4, h5, h6, h7, h8, h9]
  refine ⟨fun c => Cert.Args.res0 (Cert.KernelValue.argsOf m c) x, fun c => Cert.Args.res1 (Cert.KernelValue.argsOf m c) x,
    fun c => Cert.Args.res2 (Cert.KernelValue.argsOf m c) x, ?_, ?_⟩
  · exact (θ_run Cert.KernelIdeal.defs _ _).mono (fun _ h c =>
      have hk := Cert.KernelValue.kernel_results m (adm m x hT) c x (adm_row0 m x hT) (Cert.PreFacts.real_of_pre m hpre c)
      ⟨(h c _ (mem_uc main_v31 (by decide))).trans hk.1, (h c _ (mem_uc main_v32 (by decide))).trans hk.2.1,
        (h c _ (mem_uc main_v33 (by decide))).trans hk.2.2, args_kept m _ c _ (h c)⟩)
      (run_token m g x hT)
  · exact (θ_run Cert.ReferenceIdeal.defs _ _).mono (fun _ h c => by
      have hc := h c
      rw [hA c] at hc
      exact hc) (Cert.RefValue.ref_run m' g' x fun c => (hagree c).1.trans (hT c))

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, preserves, algebraic⟩

end Cert.Proof

end
